-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v128)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000 : Shape := ⟨1, ![600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S128x1 .f32) (main_arg11 : FVec F S1 .f32) (main_v33 : IVec S_ 1) : IVec S_ 1 :=
  let main_v34 : FVec F S128x1 .f32 := Host.absf main_arg10
  let main_cst_12 : FVec F S_ .f32 := constant S_ .f32 0x7F800000#32
  let main_v35 : FVec F S128x1 .f32 := broadcastInDim S128x1 ![] bcast_S_S128x1 main_cst_12
  let main_v36 : IVec S128x1 1 := cmpf .olt main_v34 main_v35
  let main_c_13 : IVec S_ 1 := constantI S_ 1 1#1
  let main_v37 : IVec S_ 1 := (fun x v => Host.reduce IntOp.andi x v reducesTo_S128x1_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg7 : FVec F S128 .f32) (main_arg8 : FVec F S128x128 .f32) (main_arg9 : FVec F S128 .f32) (main_arg10 : FVec F S128x1 .f32) (main_arg11 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg8
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg9
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg10 main_arg11 main_v33

def fn {F : FTy → Type} [FloatOps F] (main_arg0 : FVec F S50000x128 .f32) (main_arg1 : IVec S2x600000 32) (main_arg2 : IVec S600000 32) (main_arg3 : IVec S50000 32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x1 .f32) (main_arg11 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg7 main_arg8 main_arg9 main_arg10 main_arg11 main_v13 main_v16
-- ==== Kernel.lean ====
abbrev S50000x128 : Shape := ⟨2, ![50000, 128]⟩
abbrev S2x600000 : Shape := ⟨2, ![2, 600000]⟩
abbrev S600000 : Shape := ⟨1, ![600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S_ : Shape := ⟨0, ![]⟩
abbrev S5000x128 : Shape := ⟨2, ![5000, 128]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S5000x1 : Shape := ⟨2, ![5000, 1]⟩
abbrev S1x1 : Shape := ⟨2, ![1, 1]⟩
abbrev S64x1 : Shape := ⟨2, ![64, 1]⟩
abbrev S64x128 : Shape := ⟨2, ![64, 128]⟩
abbrev S1x64 : Shape := ⟨2, ![1, 64]⟩
abbrev S5000x64 : Shape := ⟨2, ![5000, 64]⟩

abbrev nBuf : Space → Nat
  | .hbm => 173
  | .vmem => 47
  | .smem => 0
  | _ => 0

abbrev hbmTy0_0 (i : Nat) : BufTy := match i % 128 with
  | 0 => ⟨S50000x128, .f32⟩
  | 1 => ⟨S2x600000, .i32⟩
  | 2 => ⟨S600000, .i32⟩
  | 3 => ⟨S50000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x1, .f32⟩
  | 11 => ⟨S1, .f32⟩
  | 12 => ⟨S1x600000, .i32⟩
  | 13 => ⟨S600000, .i32⟩
  | 14 => ⟨S1x600000, .i32⟩
  | 15 => ⟨S600000, .i32⟩
  | 16 => ⟨S_, .f32⟩
  | 17 => ⟨S600000, .f32⟩
  | 18 => ⟨S50000x128, .f32⟩
  | 19 => ⟨S_, .f32⟩
  | 20 => ⟨S50000, .f32⟩
  | 21 => ⟨S600000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000, .f32⟩
  | 36 => ⟨S600000, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000, .f32⟩
  | 46 => ⟨S600000, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000x128, .f32⟩
  | 56 => ⟨S600000x1, .f32⟩
  | 57 => ⟨S600000x128, .f32⟩
  | 58 => ⟨S600000x128, .f32⟩
  | 59 => ⟨S_, .f32⟩
  | 60 => ⟨S50000x128, .f32⟩
  | 61 => ⟨S600000x1, .i32⟩
  | 62 => ⟨S50000x128, .f32⟩
  | 63 => ⟨S50000x1, .f32⟩
  | 64 => ⟨S1x128, .f32⟩
  | 65 => ⟨S50000x128, .f32⟩
  | 66 => ⟨S50000x128, .f32⟩
  | 67 => ⟨S_, .i32⟩
  | 68 => ⟨S600000, .i32⟩
  | 69 => ⟨S600000, .i1⟩
  | 70 => ⟨S600000, .f32⟩
  | 71 => ⟨S_, .f32⟩
  | 72 => ⟨S50000, .f32⟩
  | 73 => ⟨S600000x1, .i32⟩
  | 74 => ⟨S50000, .f32⟩
  | 75 => ⟨S_, .f32⟩
  | 76 => ⟨S50000, .f32⟩
  | 77 => ⟨S50000, .f32⟩
  | 78 => ⟨S50000, .f32⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S600000, .f32⟩
  | 88 => ⟨S600000, .f32⟩
  | 89 => ⟨S_, .i32⟩
  | 90 => ⟨S600000, .i32⟩
  | 91 => ⟨S600000, .i1⟩
  | 92 => ⟨S_, .i32⟩
  | 93 => ⟨S600000, .i32⟩
  | 94 => ⟨S600000, .i32⟩
  | 95 => ⟨S600000, .i32⟩
  | 96 => ⟨S600000x1, .i32⟩
  | 97 => ⟨S600000, .f32⟩
  | 98 => ⟨S600000, .f32⟩
  | 99 => ⟨S_, .i32⟩
  | 100 => ⟨S600000, .i32⟩
  | 101 => ⟨S600000, .i1⟩
  | 102 => ⟨S_, .i32⟩
  | 103 => ⟨S600000, .i32⟩
  | 104 => ⟨S600000, .i32⟩
  | 105 => ⟨S600000, .i32⟩
  | 106 => ⟨S600000x1, .i32⟩
  | 107 => ⟨S600000x128, .f32⟩
  | 108 => ⟨S600000x1, .f32⟩
  | 109 => ⟨S600000x128, .f32⟩
  | 110 => ⟨S600000x128, .f32⟩
  | 111 => ⟨S_, .f32⟩
  | 112 => ⟨S50000x128, .f32⟩
  | 113 => ⟨S600000x1, .i32⟩
  | 114 => ⟨S50000x128, .f32⟩
  | 115 => ⟨S50000x1, .f32⟩
  | 116 => ⟨S1x128, .f32⟩
  | 117 => ⟨S50000x128, .f32⟩
  | 118 => ⟨S50000x128, .f32⟩
  | 119 => ⟨S_, .i32⟩
  | 120 => ⟨S600000, .i32⟩
  | 121 => ⟨S600000, .i1⟩
  | 122 => ⟨S600000, .f32⟩
  | 123 => ⟨S_, .f32⟩
  | 124 => ⟨S50000, .f32⟩
  | 125 => ⟨S600000x1, .i32⟩
  | 126 => ⟨S50000, .f32⟩
  | 127 => ⟨S_, .f32⟩
  | _ => ⟨S50000x128, .f32⟩

abbrev hbmTy0_1 (i : Nat) : BufTy := match i % 128 with
  | 0 => ⟨S50000, .f32⟩
  | 1 => ⟨S50000, .f32⟩
  | 2 => ⟨S50000, .f32⟩
  | 3 => ⟨S_, .i32⟩
  | 4 => ⟨S600000, .i32⟩
  | 5 => ⟨S600000, .i1⟩
  | 6 => ⟨S_, .i32⟩
  | 7 => ⟨S600000, .i32⟩
  | 8 => ⟨S600000, .i32⟩
  | 9 => ⟨S600000, .i32⟩
  | 10 => ⟨S600000x1, .i32⟩
  | 11 => ⟨S600000, .f32⟩
  | 12 => ⟨S600000, .f32⟩
  | 13 => ⟨S_, .i32⟩
  | 14 => ⟨S600000, .i32⟩
  | 15 => ⟨S600000, .i1⟩
  | 16 => ⟨S_, .i32⟩
  | 17 => ⟨S600000, .i32⟩
  | 18 => ⟨S600000, .i32⟩
  | 19 => ⟨S600000, .i32⟩
  | 20 => ⟨S600000x1, .i32⟩
  | 21 => ⟨S600000, .f32⟩
  | 22 => ⟨S600000, .f32⟩
  | 23 => ⟨S_, .i32⟩
  | 24 => ⟨S600000, .i32⟩
  | 25 => ⟨S600000, .i1⟩
  | 26 => ⟨S_, .i32⟩
  | 27 => ⟨S600000, .i32⟩
  | 28 => ⟨S600000, .i32⟩
  | 29 => ⟨S600000, .i32⟩
  | 30 => ⟨S600000x1, .i32⟩
  | 31 => ⟨S600000x128, .f32⟩
  | 32 => ⟨S600000x1, .f32⟩
  | 33 => ⟨S600000x128, .f32⟩
  | 34 => ⟨S600000x128, .f32⟩
  | 35 => ⟨S_, .f32⟩
  | 36 => ⟨S50000x128, .f32⟩
  | 37 => ⟨S600000x1, .i32⟩
  | 38 => ⟨S50000x128, .f32⟩
  | 39 => ⟨S50000x1, .f32⟩
  | 40 => ⟨S1x128, .f32⟩
  | 41 => ⟨S50000x128, .f32⟩
  | 42 => ⟨S50000x1, .i32⟩
  | 43 => ⟨S1x1, .f32⟩
  | 44 => ⟨S64x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x1, .f32⟩
  | .local _ .vmem, ⟨22, _⟩ => ⟨S5000x1, .f32⟩
  | .local _ .vmem, ⟨23, _⟩ => ⟨S1x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x1, .f32⟩
  | .local _ .vmem, ⟨34, _⟩ => ⟨S5000x1, .f32⟩
  | .local _ .vmem, ⟨35, _⟩ => ⟨S1x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x1, .i32⟩
  | .local _ .vmem, ⟨41, _⟩ => ⟨S5000x1, .i32⟩
  | .local _ .vmem, ⟨42, _⟩ => ⟨S128x1, .f32⟩
  | .local _ .vmem, ⟨43, _⟩ => ⟨S1x1, .f32⟩
  | .local _ .vmem, ⟨44, _⟩ => ⟨S64x1, .f32⟩
  | .local _ .vmem, ⟨45, _⟩ => ⟨S64x128, .f32⟩
  | .local _ .vmem, ⟨46, _⟩ => ⟨S64x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43_0 : Ref sig .tc := ⟨.hbm, 65, rfl⟩
abbrev main_v43_1 : Ref sig .tc := ⟨.hbm, 66, rfl⟩
abbrev main_c_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_11 : Ref sig .tc := ⟨.hbm, 79, rfl⟩
abbrev main_v53 : Ref sig .tc := ⟨.hbm, 80, rfl⟩
abbrev main_v54 : Ref sig .tc := ⟨.hbm, 81, rfl⟩
abbrev main_c_12 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_13 : Ref sig .tc := ⟨.hbm, 89, rfl⟩
abbrev main_v61 : Ref sig .tc := ⟨.hbm, 90, rfl⟩
abbrev main_v62 : Ref sig .tc := ⟨.hbm, 91, rfl⟩
abbrev main_c_14 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_c_15 : Ref sig .tc := ⟨.hbm, 99, rfl⟩
abbrev main_v69 : Ref sig .tc := ⟨.hbm, 100, rfl⟩
abbrev main_v70 : Ref sig .tc := ⟨.hbm, 101, rfl⟩
abbrev main_c_16 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_17 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84_0 : Ref sig .tc := ⟨.hbm, 117, rfl⟩
abbrev main_v84_1 : Ref sig .tc := ⟨.hbm, 118, rfl⟩
abbrev main_c_18 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_19 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_cst_20 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_c_21 : Ref sig .tc := ⟨.hbm, 131, rfl⟩
abbrev main_v94 : Ref sig .tc := ⟨.hbm, 132, rfl⟩
abbrev main_v95 : Ref sig .tc := ⟨.hbm, 133, rfl⟩
abbrev main_c_22 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_c_23 : Ref sig .tc := ⟨.hbm, 141, rfl⟩
abbrev main_v102 : Ref sig .tc := ⟨.hbm, 142, rfl⟩
abbrev main_v103 : Ref sig .tc := ⟨.hbm, 143, rfl⟩
abbrev main_c_24 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_c_25 : Ref sig .tc := ⟨.hbm, 151, rfl⟩
abbrev main_v110 : Ref sig .tc := ⟨.hbm, 152, rfl⟩
abbrev main_v111 : Ref sig .tc := ⟨.hbm, 153, rfl⟩
abbrev main_c_26 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_v119 : Ref sig .tc := ⟨.hbm, 162, rfl⟩
abbrev main_cst_27 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc2_stg6_0 : Ref sig .tc := ⟨.vmem, 27, rfl⟩
abbrev cc2_stg6_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg4_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_scratch0 : Ref sig .tc := ⟨.vmem, 45, rfl⟩
abbrev cc4_scratch1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem5_1 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26
abbrev cc2_sem6_0 : DmaSem sig := 27
abbrev cc2_sem6_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem4_0 : DmaSem sig := 36
abbrev cc3_sem4_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def k4_cond2 (i : grid4.Coords) : BitVec 1 :=
  let arg0 : BitVec 32 := BitVec.ofNat 32 (i 0).val
  let c9_i32 : BitVec 32 := 9#32
  let v28 : BitVec 1 := Scalar.cmpi .eq arg0 c9_i32
  let v29 : BitVec 32 := Scalar.extui v28
  let c0_i32_14 : BitVec 32 := 0#32
  let v30 : BitVec 1 := Scalar.cmpi .ne v29 c0_i32_14
  v30

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  shapeCasts_S50000_S50000x1 : S50000.ShapeCasts S50000x1
  shapeCasts_S128_S1x128 : S128.ShapeCasts S1x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  shapeCasts_S1_S1x1 : S1.ShapeCasts S1x1
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S1x64_d1_w32 : S1x64.Iotas .tc 32 [1]
  broadcasts_S5000x1_S5000x64 : S5000x1.Broadcasts S5000x64
  broadcasts_S1x64_S5000x64 : S1x64.Broadcasts S5000x64
  natLt_1_32 : 1 < 32
  broadcasts_S64x1_S64x128 : S64x1.Broadcasts S64x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S64x1 : S1x1.Broadcasts S64x1
  dot_S5000x128_S128x128_S5000x128_1_0_0_1_n_n_wf : DotDims.WF S5000x128 S128x128 S5000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x64_S5000x128_S64x128_0_0_1_1_n_n_wf : DotDims.WF S5000x64 S5000x128 S64x128 [0] [0] [1] [1] [] []
  dot_S5000x64_S5000x1_S64x1_0_0_1_1_n_n_wf : DotDims.WF S5000x64 S5000x1 S64x1 [0] [0] [1] [1] [] []
  dot_S64x128_S128x1_S64x1_1_0_0_1_n_n_wf : DotDims.WF S64x128 S128x1 S64x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S50000x128.size a
  hwx3_4 : ∀ i : grid3.Coords, EltTy.bits .f32 = 32 ∨ (Rect.block (s := S50000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S50000x1.size a
  hwx4_1 : ∀ i : grid4.Coords, EltTy.bits .i32 = 32 ∨ (Rect.block (s := S50000x1) S5000x1.size (cc4_transform_1 i) (hinb4_1 i)).WholeWords (EltTy.packing .i32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x1.size a ≤ S128x1.size a
  hwx4_2 : ∀ i : grid4.Coords, EltTy.bits .f32 = 32 ∨ (Rect.block (s := S128x1) S128x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x1.size a ≤ S1x1.size a
  hwx4_3 : ∀ i : grid4.Coords, EltTy.bits .f32 = 32 ∨ (Rect.block (s := S1x1) S1x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x1.size a ≤ S64x1.size a
  hwx4_4 : ∀ i : grid4.Coords, EltTy.bits .f32 = 32 ∨ (Rect.block (s := S64x1) S64x1.size (cc4_transform_4 i) (hinb4_4 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S5000x64_S5000x1_S64x1_0_0_1_1_n_n : DotDims S5000x64 S5000x1 S64x1 where
  lhsContracting := [0]
  rhsContracting := [0]
  lhsNonContracting := [1]
  rhsNonContracting := [1]
  lhsBatch := []
  rhsBatch := []
  wf := dot_S5000x64_S5000x1_S64x1_0_0_1_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v43_1) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v81) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43_1) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v82) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v83) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v84_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v84_1) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v122) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84_1) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v123) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v124) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v125) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v125) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v126) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg10) S128x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v127) S1x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v128) S64x1.size cc4_transform_4 reads4_4 true true 1 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev idle4 : Fin 5 → grid4.Coords → Bool := fun | 0 => fun _ => false | 1 => fun _ => false | 2 => fun _ => false | 3 => fun _ => false | 4 => fun i => !(k4_cond2 i == 1#1) | ⟨_ + 5, h⟩ => absurd h (Nat.not_lt.2 (Nat.le_add_left _ _))

class Facts : Prop extends Facts₀ where

variable [Facts]
-- ==== ReferenceIdeal.lean ====
abbrev S50000x128 : Shape := ⟨2, ![50000, 128]⟩
abbrev S2x600000 : Shape := ⟨2, ![2, 600000]⟩
abbrev S600000 : Shape := ⟨1, ![600000]⟩
abbrev S50000 : Shape := ⟨1, ![50000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S1x600000 : Shape := ⟨2, ![1, 600000]⟩
abbrev S_ : Shape := ⟨0, ![]⟩
abbrev S600000x1 : Shape := ⟨2, ![600000, 1]⟩
abbrev S600000x128 : Shape := ⟨2, ![600000, 128]⟩
abbrev S50000x1 : Shape := ⟨2, ![50000, 1]⟩
abbrev S1x128 : Shape := ⟨2, ![1, 128]⟩
abbrev S64x128 : Shape := ⟨2, ![64, 128]⟩
abbrev S64 : Shape := ⟨1, ![64]⟩
abbrev S64x1 : Shape := ⟨2, ![64, 1]⟩
abbrev S1x1 : Shape := ⟨2, ![1, 1]⟩

abbrev nBuf : Space → Nat
  | .hbm => 212
  | .vmem => 0
  | .smem => 0
  | _ => 0

abbrev hbmTy0_0 (i : Nat) : BufTy := match i % 128 with
  | 0 => ⟨S50000x128, .f32⟩
  | 1 => ⟨S2x600000, .i32⟩
  | 2 => ⟨S600000, .i32⟩
  | 3 => ⟨S50000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x1, .f32⟩
  | 11 => ⟨S1, .f32⟩
  | 12 => ⟨S1x600000, .i32⟩
  | 13 => ⟨S600000, .i32⟩
  | 14 => ⟨S1x600000, .i32⟩
  | 15 => ⟨S600000, .i32⟩
  | 16 => ⟨S_, .f32⟩
  | 17 => ⟨S600000, .f32⟩
  | 18 => ⟨S50000x128, .f32⟩
  | 19 => ⟨S_, .f32⟩
  | 20 => ⟨S50000, .f32⟩
  | 21 => ⟨S600000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .i32⟩
  | 28 => ⟨S600000, .i32⟩
  | 29 => ⟨S600000, .i1⟩
  | 30 => ⟨S_, .i32⟩
  | 31 => ⟨S600000, .i32⟩
  | 32 => ⟨S600000, .i32⟩
  | 33 => ⟨S600000, .i32⟩
  | 34 => ⟨S600000x1, .i32⟩
  | 35 => ⟨S600000, .f32⟩
  | 36 => ⟨S600000, .f32⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000, .f32⟩
  | 46 => ⟨S600000, .f32⟩
  | 47 => ⟨S_, .i32⟩
  | 48 => ⟨S600000, .i32⟩
  | 49 => ⟨S600000, .i1⟩
  | 50 => ⟨S_, .i32⟩
  | 51 => ⟨S600000, .i32⟩
  | 52 => ⟨S600000, .i32⟩
  | 53 => ⟨S600000, .i32⟩
  | 54 => ⟨S600000x1, .i32⟩
  | 55 => ⟨S600000x128, .f32⟩
  | 56 => ⟨S600000x1, .f32⟩
  | 57 => ⟨S600000x128, .f32⟩
  | 58 => ⟨S600000x128, .f32⟩
  | 59 => ⟨S_, .f32⟩
  | 60 => ⟨S50000x128, .f32⟩
  | 61 => ⟨S600000x1, .i32⟩
  | 62 => ⟨S50000x128, .f32⟩
  | 63 => ⟨S50000, .f32⟩
  | 64 => ⟨S50000x1, .f32⟩
  | 65 => ⟨S50000x128, .f32⟩
  | 66 => ⟨S50000x128, .f32⟩
  | 67 => ⟨S50000x128, .f32⟩
  | 68 => ⟨S1x128, .f32⟩
  | 69 => ⟨S50000x128, .f32⟩
  | 70 => ⟨S50000x128, .f32⟩
  | 71 => ⟨S_, .f32⟩
  | 72 => ⟨S50000x128, .f32⟩
  | 73 => ⟨S50000x128, .f32⟩
  | 74 => ⟨S_, .i32⟩
  | 75 => ⟨S600000, .i32⟩
  | 76 => ⟨S600000, .i1⟩
  | 77 => ⟨S600000, .f32⟩
  | 78 => ⟨S50000x128, .f32⟩
  | 79 => ⟨S_, .f32⟩
  | 80 => ⟨S50000, .f32⟩
  | 81 => ⟨S600000x1, .i32⟩
  | 82 => ⟨S50000, .f32⟩
  | 83 => ⟨S_, .f32⟩
  | 84 => ⟨S50000, .f32⟩
  | 85 => ⟨S50000, .f32⟩
  | 86 => ⟨S50000, .f32⟩
  | 87 => ⟨S_, .i32⟩
  | 88 => ⟨S600000, .i32⟩
  | 89 => ⟨S600000, .i1⟩
  | 90 => ⟨S_, .i32⟩
  | 91 => ⟨S600000, .i32⟩
  | 92 => ⟨S600000, .i32⟩
  | 93 => ⟨S600000, .i32⟩
  | 94 => ⟨S600000x1, .i32⟩
  | 95 => ⟨S600000, .f32⟩
  | 96 => ⟨S600000, .f32⟩
  | 97 => ⟨S_, .i32⟩
  | 98 => ⟨S600000, .i32⟩
  | 99 => ⟨S600000, .i1⟩
  | 100 => ⟨S_, .i32⟩
  | 101 => ⟨S600000, .i32⟩
  | 102 => ⟨S600000, .i32⟩
  | 103 => ⟨S600000, .i32⟩
  | 104 => ⟨S600000x1, .i32⟩
  | 105 => ⟨S600000, .f32⟩
  | 106 => ⟨S600000, .f32⟩
  | 107 => ⟨S_, .i32⟩
  | 108 => ⟨S600000, .i32⟩
  | 109 => ⟨S600000, .i1⟩
  | 110 => ⟨S_, .i32⟩
  | 111 => ⟨S600000, .i32⟩
  | 112 => ⟨S600000, .i32⟩
  | 113 => ⟨S600000, .i32⟩
  | 114 => ⟨S600000x1, .i32⟩
  | 115 => ⟨S600000x128, .f32⟩
  | 116 => ⟨S600000x1, .f32⟩
  | 117 => ⟨S600000x128, .f32⟩
  | 118 => ⟨S600000x128, .f32⟩
  | 119 => ⟨S_, .f32⟩
  | 120 => ⟨S50000x128, .f32⟩
  | 121 => ⟨S600000x1, .i32⟩
  | 122 => ⟨S50000x128, .f32⟩
  | 123 => ⟨S50000, .f32⟩
  | 124 => ⟨S50000x1, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S_, .f32⟩
  | 4 => ⟨S50000x128, .f32⟩
  | 5 => ⟨S50000x128, .f32⟩
  | 6 => ⟨S_, .i32⟩
  | 7 => ⟨S600000, .i32⟩
  | 8 => ⟨S600000, .i1⟩
  | 9 => ⟨S600000, .f32⟩
  | 10 => ⟨S50000x128, .f32⟩
  | 11 => ⟨S_, .f32⟩
  | 12 => ⟨S50000, .f32⟩
  | 13 => ⟨S600000x1, .i32⟩
  | 14 => ⟨S50000, .f32⟩
  | 15 => ⟨S_, .f32⟩
  | 16 => ⟨S50000, .f32⟩
  | 17 => ⟨S50000, .f32⟩
  | 18 => ⟨S50000, .f32⟩
  | 19 => ⟨S_, .i32⟩
  | 20 => ⟨S600000, .i32⟩
  | 21 => ⟨S600000, .i1⟩
  | 22 => ⟨S_, .i32⟩
  | 23 => ⟨S600000, .i32⟩
  | 24 => ⟨S600000, .i32⟩
  | 25 => ⟨S600000, .i32⟩
  | 26 => ⟨S600000x1, .i32⟩
  | 27 => ⟨S600000, .f32⟩
  | 28 => ⟨S600000, .f32⟩
  | 29 => ⟨S_, .i32⟩
  | 30 => ⟨S600000, .i32⟩
  | 31 => ⟨S600000, .i1⟩
  | 32 => ⟨S_, .i32⟩
  | 33 => ⟨S600000, .i32⟩
  | 34 => ⟨S600000, .i32⟩
  | 35 => ⟨S600000, .i32⟩
  | 36 => ⟨S600000x1, .i32⟩
  | 37 => ⟨S600000, .f32⟩
  | 38 => ⟨S600000, .f32⟩
  | 39 => ⟨S_, .i32⟩
  | 40 => ⟨S600000, .i32⟩
  | 41 => ⟨S600000, .i1⟩
  | 42 => ⟨S_, .i32⟩
  | 43 => ⟨S600000, .i32⟩
  | 44 => ⟨S600000, .i32⟩
  | 45 => ⟨S600000, .i32⟩
  | 46 => ⟨S600000x1, .i32⟩
  | 47 => ⟨S600000x128, .f32⟩
  | 48 => ⟨S600000x1, .f32⟩
  | 49 => ⟨S600000x128, .f32⟩
  | 50 => ⟨S600000x128, .f32⟩
  | 51 => ⟨S_, .f32⟩
  | 52 => ⟨S50000x128, .f32⟩
  | 53 => ⟨S600000x1, .i32⟩
  | 54 => ⟨S50000x128, .f32⟩
  | 55 => ⟨S50000, .f32⟩
  | 56 => ⟨S50000x1, .f32⟩
  | 57 => ⟨S50000x128, .f32⟩
  | 58 => ⟨S50000x128, .f32⟩
  | 59 => ⟨S50000x128, .f32⟩
  | 60 => ⟨S1x128, .f32⟩
  | 61 => ⟨S50000x128, .f32⟩
  | 62 => ⟨S50000x128, .f32⟩
  | 63 => ⟨S_, .f32⟩
  | 64 => ⟨S64x128, .f32⟩
  | 65 => ⟨S50000x1, .i32⟩
  | 66 => ⟨S64x128, .f32⟩
  | 67 => ⟨S_, .f32⟩
  | 68 => ⟨S50000, .f32⟩
  | 69 => ⟨S_, .f32⟩
  | 70 => ⟨S64, .f32⟩
  | 71 => ⟨S50000x1, .i32⟩
  | 72 => ⟨S64, .f32⟩
  | 73 => ⟨S_, .f32⟩
  | 74 => ⟨S_, .f32⟩
  | 75 => ⟨S64, .f32⟩
  | 76 => ⟨S64, .f32⟩
  | 77 => ⟨S64x1, .f32⟩
  | 78 => ⟨S64x128, .f32⟩
  | 79 => ⟨S64x128, .f32⟩
  | 80 => ⟨S64x1, .f32⟩
  | 81 => ⟨S1x1, .f32⟩
  | 82 => ⟨S64x1, .f32⟩
  | 83 => ⟨S64x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_3 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_7 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call0_cst : Ref sig .tc := ⟨.hbm, 71, rfl⟩
abbrev main_call0_v0 : Ref sig .tc := ⟨.hbm, 72, rfl⟩
abbrev main_v49 : Ref sig .tc := ⟨.hbm, 73, rfl⟩
abbrev main_c_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_9 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_11 : Ref sig .tc := ⟨.hbm, 87, rfl⟩
abbrev main_v60 : Ref sig .tc := ⟨.hbm, 88, rfl⟩
abbrev main_v61 : Ref sig .tc := ⟨.hbm, 89, rfl⟩
abbrev main_c_12 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_c_13 : Ref sig .tc := ⟨.hbm, 97, rfl⟩
abbrev main_v68 : Ref sig .tc := ⟨.hbm, 98, rfl⟩
abbrev main_v69 : Ref sig .tc := ⟨.hbm, 99, rfl⟩
abbrev main_c_14 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_15 : Ref sig .tc := ⟨.hbm, 107, rfl⟩
abbrev main_v76 : Ref sig .tc := ⟨.hbm, 108, rfl⟩
abbrev main_v77 : Ref sig .tc := ⟨.hbm, 109, rfl⟩
abbrev main_c_16 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_cst_17 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_call1_cst : Ref sig .tc := ⟨.hbm, 131, rfl⟩
abbrev main_call1_v0 : Ref sig .tc := ⟨.hbm, 132, rfl⟩
abbrev main_v97 : Ref sig .tc := ⟨.hbm, 133, rfl⟩
abbrev main_c_18 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_19 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_cst_20 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_c_21 : Ref sig .tc := ⟨.hbm, 147, rfl⟩
abbrev main_v108 : Ref sig .tc := ⟨.hbm, 148, rfl⟩
abbrev main_v109 : Ref sig .tc := ⟨.hbm, 149, rfl⟩
abbrev main_c_22 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_c_23 : Ref sig .tc := ⟨.hbm, 157, rfl⟩
abbrev main_v116 : Ref sig .tc := ⟨.hbm, 158, rfl⟩
abbrev main_v117 : Ref sig .tc := ⟨.hbm, 159, rfl⟩
abbrev main_c_24 : Ref sig .tc := ⟨.hbm, 160, rfl⟩
abbrev main_v118 : Ref sig .tc := ⟨.hbm, 161, rfl⟩
abbrev main_v119 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_c_25 : Ref sig .tc := ⟨.hbm, 167, rfl⟩
abbrev main_v124 : Ref sig .tc := ⟨.hbm, 168, rfl⟩
abbrev main_v125 : Ref sig .tc := ⟨.hbm, 169, rfl⟩
abbrev main_c_26 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_cst_27 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_cst_28 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_cst_29 : Ref sig .tc := ⟨.hbm, 195, rfl⟩
abbrev main_v148 : Ref sig .tc := ⟨.hbm, 196, rfl⟩
abbrev main_cst_30 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_cst_31 : Ref sig .tc := ⟨.hbm, 201, rfl⟩
abbrev main_call2_v0 : Ref sig .tc := ⟨.hbm, 202, rfl⟩
abbrev main_call2_v1 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S600000x1_S600000x128_0_1 : S600000x1.BroadcastsInDim S600000x128 (![0, 1] : Fin 2 → Fin S600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S64x128 : S_.BroadcastsInDim S64x128 (![] : Fin 0 → Fin S64x128.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  dot_S50000x128_S128x128_S50000x128_1_0_0_1_n_n_wf : DotDims.WF S50000x128 S128x128 S50000x128 [1] [0] [0] [1] [] []
  scatter_S50000_S600000x1_S600000_n_0_0_1_wf : ScatterDims.WF S50000 S600000x1 S600000 [] [0] [0] 1
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S64x128_S50000x1_S50000x128_1_0_0_1_wf : ScatterDims.WF S64x128 S50000x1 S50000x128 [1] [0] [0] 1
  scatter_S64_S50000x1_S50000_n_0_0_1_wf : ScatterDims.WF S64 S50000x1 S50000 [] [0] [0] 1
  dot_S64x128_S128x1_S64x1_1_0_0_1_n_n_wf : DotDims.WF S64x128 S128x1 S64x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S64x128_S50000x1_S50000x128_1_0_0_1 : ScatterDims S64x128 S50000x1 S50000x128 where
  updateWindowDims := [1]
  insertedWindowDims := [0]
  scatterDimsToOperandDims := [0]
  indexVectorDim := 1
  wf := scatter_S64x128_S50000x1_S50000x128_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.K.Reg0.lean ====
import proofs.«422729_j12214886989913_2_alg».proof.Proof.Gen.Kernel.Launch
import proofs.«422729_j12214886989913_2_alg».proof.Proof.Gen.Kernel.Skeleton
import proofs.«422729_j12214886989913_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_t : Rect S5000x128 := Rect.unit (s := S5000x128) ![0, 0] S5000x128.size inb_S5000x128_S5000x128_0_0
abbrev r0_w : Rect S128x128 := Rect.unit (s := S128x128) ![0, 0] S128x128.size inb_S128x128_S128x128_0_0

/-- The output tile after the body: its one whole-tile store. -/
def out0_2 (x0 : Vec F S5000x128 .f32) (x1 : Vec F S128x128 .f32) : Vec F S5000x128 .f32 :=
  View.canon [⟨r0_t, k0_pay1 (View.ld x0 r0_t) (View.ld x1 r0_w)⟩]

theorem cover0_2 (p0 : Vec F S5000x128 .f32) (y : S5000x128.Idx) :
    ∃ pc ∈ ([⟨r0_t, p0⟩] : List (View.Piece (Elt F) S5000x128 .f32)), y ∈ pc.1.set :=
  View.cover_of_tiled [⟨r0_t, p0⟩] S5000x128.size (by rfl) y

set_option maxHeartbeats 1000000 in

/-- The body on whole tiles: the inputs are left as they were, the output ends at `out0_2`. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data: every input window keeps its block, every output window ends at the body's store. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
import proofs.«422729_j12214886989913_2_alg».proof.Proof.Gen.Kernel.Launch
import proofs.«422729_j12214886989913_2_alg».proof.Proof.Gen.Kernel.Skeleton
import proofs.«422729_j12214886989913_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_t : Rect S5000x128 := Rect.unit (s := S5000x128) ![0, 0] S5000x128.size inb_S5000x128_S5000x128_0_0
abbrev r1_d : Rect S5000x1 := Rect.unit (s := S5000x1) ![0, 0] S5000x1.size inb_S5000x1_S5000x1_0_0
abbrev r1_b : Rect S1x128 := Rect.unit (s := S1x128) ![0, 0] S1x128.size inb_S1x128_S1x128_0_0
abbrev r1_w : Rect S128x128 := Rect.unit (s := S128x128) ![0, 0] S128x128.size inb_S128x128_S128x128_0_0

/-- The two output tiles after the body: each is one whole-tile store. -/
def out1_5 (x0 x1 : Vec F S5000x128 .f32) (x2 : Vec F S5000x1 .f32) (x3 : Vec F S1x128 .f32) : Vec F S5000x128 .f32 :=
  View.canon [⟨r1_t, k1_pay1 (View.ld x2 r1_d) (View.ld x2 r1_d) (View.ld x3 r1_b) (View.ld x0 r1_t) (View.ld x1 r1_t)⟩]

def out1_6 (x0 x1 : Vec F S5000x128 .f32) (x2 : Vec F S5000x1 .f32) (x3 : Vec F S1x128 .f32) (x4 : Vec F S128x128 .f32) : Vec F S5000x128 .f32 :=
  View.canon [⟨r1_t, k1_pay2 (View.ld x2 r1_d) (View.ld x2 r1_d) (View.ld x3 r1_b) (View.ld x0 r1_t) (View.ld x1 r1_t) (View.ld x4 r1_w)⟩]

theorem cover1_5 (p0 : Vec F S5000x128 .f32) (y : S5000x128.Idx) :
    ∃ pc ∈ ([⟨r1_t, p0⟩] : List (View.Piece (Elt F) S5000x128 .f32)), y ∈ pc.1.set :=
  View.cover_of_tiled [⟨r1_t, p0⟩] S5000x128.size (by rfl) y

theorem cover1_6 (p0 : Vec F S5000x128 .f32) (y : S5000x128.Idx) :
    ∃ pc ∈ ([⟨r1_t, p0⟩] : List (View.Piece (Elt F) S5000x128 .f32)), y ∈ pc.1.set :=
  View.cover_of_tiled [⟨r1_t, p0⟩] S5000x128.size (by rfl) y

set_option maxHeartbeats 1000000 in

/-- The body on whole tiles: the inputs are left as they were, the outputs end at `out1_5` and `out1_6`. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S5000x128 .f32) (harg7 : arg7.IsWhole)
    (x0 : Vec F S5000x128 .f32) (x1 : Vec F S5000x128 .f32) (x2 : Vec F S5000x1 .f32) (x3 : Vec F S1x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3) ∗ owns (c : Thread nD τ) arg7 fullShare (out1_6 x0 x1 x2 x3 x4)) -∗ K ⟨⟩))
      ⊢ wp frame (wpE (defs₀ (F := F)) Variants.none c none) E (cc1__combine_linear_kernel i arg1 harg1 arg2 harg2 arg3 harg3 arg4 harg4 arg5 harg5 arg6 harg6 arg7 harg7) K := by
  simp only [cc1__combine_linear_kernel_eq_skeleton]; unfold cc1__combine_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-- The region's proof data: every input window keeps its block, every output window ends at the body's store. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
import proofs.«422729_j12214886989913_2_alg».proof.Proof.K.Reg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Region 2 runs region 1's kernel function on its own arrays: the proof data have region 1's stores. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out1_5 (iblk2 V c 0 t) (iblk2 V c 1 t) (iblk2 V c 2 t) (iblk2 V c 3 t)
    | ⟨6, _⟩ => out1_6 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out1_5 (iblk2 V c 0 t) (iblk2 V c 1 t) (iblk2 V c 2 t) (iblk2 V c 3 t) := by dsimp only [dat2]
theorem after2_6 (c : Dev nD) (t : Fin cfg2.N) : (dat2 V c).after 6 t = out1_6 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  rw [show cc2__combine_linear_kernel (F := F) = cc1__combine_linear_kernel (F := F) from rfl]
  iapply (sound_kernel1 c Set.univ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every grid point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
import proofs.«422729_j12214886989913_2_alg».proof.Proof.Gen.Kernel.Launch
import proofs.«422729_j12214886989913_2_alg».proof.Proof.Gen.Kernel.Skeleton
import proofs.«422729_j12214886989913_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_t : Rect S5000x128 := Rect.unit (s := S5000x128) ![0, 0] S5000x128.size inb_S5000x128_S5000x128_0_0
abbrev r3_d : Rect S5000x1 := Rect.unit (s := S5000x1) ![0, 0] S5000x1.size inb_S5000x1_S5000x1_0_0
abbrev r3_b : Rect S1x128 := Rect.unit (s := S1x128) ![0, 0] S1x128.size inb_S1x128_S1x128_0_0

/-- The output tile after the body: its one whole-tile store. -/
def out3_4 (x0 x1 : Vec F S5000x128 .f32) (x2 : Vec F S5000x1 .f32) (x3 : Vec F S1x128 .f32) : Vec F S5000x128 .f32 :=
  View.canon [⟨r3_t, k3_pay1 (View.ld x2 r3_d) (View.ld x2 r3_d) (View.ld x3 r3_b) (View.ld x0 r3_t) (View.ld x1 r3_t)⟩]

theorem cover3_4 (p0 : Vec F S5000x128 .f32) (y : S5000x128.Idx) :
    ∃ pc ∈ ([⟨r3_t, p0⟩] : List (View.Piece (Elt F) S5000x128 .f32)), y ∈ pc.1.set :=
  View.cover_of_tiled [⟨r3_t, p0⟩] S5000x128.size (by rfl) y

set_option maxHeartbeats 1000000 in

/-- The body on whole tiles: the inputs are left as they were, the output ends at `out3_4`. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__combine_kernel i arg1 harg1 arg2 harg2 arg3 harg3 arg4 harg4 arg5 harg5) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The region's proof data: every input window keeps its block, every output window ends at the body's store. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every grid point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
import proofs.«422729_j12214886989913_2_alg».proof.Proof.Gen.Kernel.Launch
import proofs.«422729_j12214886989913_2_alg».proof.Proof.Gen.Kernel.Skeleton
import proofs.«422729_j12214886989913_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 0).val) 0#32)) 0#32) = 1#1

/-- The two branch conditions over the grid: the first holds at the first of the ten points only, the second at the last only. -/
theorem hcond4_0 : ∀ t : Fin cfg4.N, cond4_0 (grid4.coords t) ↔ t.val % 10 = 0 :=
  (by decide +kernel : ∀ t : Fin grid4.N, cond4_0 (grid4.coords t) ↔ t.val % 10 = 0)

abbrev cond4_1 (i : grid4.Coords) : Prop := k4_cond2 i = 1#1

theorem hcond4_1 : ∀ t : Fin cfg4.N, cond4_1 (grid4.coords t) ↔ t.val % 10 = 9 :=
  (by decide +kernel : ∀ t : Fin grid4.N, cond4_1 (grid4.coords t) ↔ t.val % 10 = 9)

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl

theorem idleAt4_4 : ∀ t : Fin cfg4.N, ¬cond4_1 (grid4.coords t) → cfg4.idle 4 (grid4.coords t) = true := by decide +kernel

theorem noFlush4_4 : ∀ t : Fin cfg4.N, ¬cond4_1 (grid4.coords t) → (cfg4.win 4).flush t = false := by decide +kernel

theorem liveAt4_4 : ∀ t : Fin cfg4.N, cond4_1 (grid4.coords t) → cfg4.idle 4 (grid4.coords t) = false := by decide +kernel

theorem zero_S5000x128 : (![0, 0] : Fin S5000x128.rank → ℕ) = fun _ => 0 := by funext a; fin_cases a <;> rfl
theorem zero_S5000x1 : (![0, 0] : Fin S5000x1.rank → ℕ) = fun _ => 0 := by funext a; fin_cases a <;> rfl
theorem zero_S128x1 : (![0, 0] : Fin S128x1.rank → ℕ) = fun _ => 0 := by funext a; fin_cases a <;> rfl
theorem zero_S1x1 : (![0, 0] : Fin S1x1.rank → ℕ) = fun _ => 0 := by funext a; fin_cases a <;> rfl
theorem zero_S64x1 : (![0, 0] : Fin S64x1.rank → ℕ) = fun _ => 0 := by funext a; fin_cases a <;> rfl
theorem zero_S64x128 : (![0, 0] : Fin S64x128.rank → ℕ) = fun _ => 0 := by funext a; fin_cases a <;> rfl

theorem readAt_unit_zero {sig' : RefSig} {κ : Kind} {sp : Space} {S : Shape} {e : EltTy} (v : View sig' κ sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  View.ld_unit_zero h inb (v.read (Elt F) f)

theorem read_writes_unit_zero {sig' : RefSig} {κ : Kind} {sp : Space} {S : Shape} {e : EltTy} (v : View sig' κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb w L]

set_option maxHeartbeats 1000000 in

/-- The first point: both accumulators are reset, then updated; the output tile is left as found. -/
theorem sound_kernel4_A (c : Dev nD) (E : Set ℕ) (i : grid4.Coords)
    (arg1 : Memref sig .tc .vmem S5000x128 .f32) (harg1 : arg1.IsWhole) (arg2 : Memref sig .tc .vmem S5000x1 .i32) (harg2 : arg2.IsWhole)
    (arg3 : Memref sig .tc .vmem S128x1 .f32) (harg3 : arg3.IsWhole) (arg4 : Memref sig .tc .vmem S1x1 .f32) (harg4 : arg4.IsWhole)
    (arg5 : Memref sig .tc .vmem S64x1 .f32) (harg5 : arg5.IsWhole) (arg6 : Memref sig .tc .vmem S64x128 .f32) (harg6 : arg6.IsWhole)
    (arg7 : Memref sig .tc .vmem S64x1 .f32) (harg7 : arg7.IsWhole) (hc0 : cond4_0 i) (hc1 : ¬cond4_1 i)
    (x0 : Vec F S5000x128 .f32) (x1 : Vec F S5000x1 .i32) (x2 : Vec F S128x1 .f32) (x3 : Vec F S1x1 .f32) (xi4 : Vec F S64x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
            ∗ owns (c : Thread nD τ) arg6 fullShare (k4_pay4 x0 x1 k4_pay1) ∗ owns (c : Thread nD τ) arg7 fullShare (k4_pay5 x1 k4_pay2)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_writes_unit_zero arg6.view f5 zero_S64x128, readAt_unit_zero arg1.view f0 zero_S5000x128,
      readAt_unit_zero arg2.view f1 zero_S5000x1, View.readCov_unit_zero arg6.view zero_S64x128]
  iexists _; isplitr
  swap; · iexact H6
  ipureintro
  sl_unfold_run_names
  rw [read_writes_unit_zero arg7.view f6 zero_S64x1, readAt_unit_zero arg2.view f1 zero_S5000x1,
    View.readCov_unit_zero arg7.view zero_S64x1]

set_option maxHeartbeats 1000000 in

/-- A middle point: the accumulators are updated from what the point before left. -/
theorem sound_kernel4_B (c : Dev nD) (E : Set ℕ) (i : grid4.Coords)
    (arg1 : Memref sig .tc .vmem S5000x128 .f32) (harg1 : arg1.IsWhole) (arg2 : Memref sig .tc .vmem S5000x1 .i32) (harg2 : arg2.IsWhole)
    (arg3 : Memref sig .tc .vmem S128x1 .f32) (harg3 : arg3.IsWhole) (arg4 : Memref sig .tc .vmem S1x1 .f32) (harg4 : arg4.IsWhole)
    (arg5 : Memref sig .tc .vmem S64x1 .f32) (harg5 : arg5.IsWhole) (arg6 : Memref sig .tc .vmem S64x128 .f32) (harg6 : arg6.IsWhole)
    (arg7 : Memref sig .tc .vmem S64x1 .f32) (harg7 : arg7.IsWhole) (hc0 : ¬cond4_0 i) (hc1 : ¬cond4_1 i)
    (x0 : Vec F S5000x128 .f32) (x1 : Vec F S5000x1 .i32) (x2 : Vec F S128x1 .f32) (x3 : Vec F S1x1 .f32) (xi4 : Vec F S64x1 .f32)
    (a : Vec F S64x128 .f32) (n : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
        ∗ owns (c : Thread nD τ) arg6 fullShare a ∗ owns (c : Thread nD τ) arg7 fullShare n
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
            ∗ owns (c : Thread nD τ) arg6 fullShare (k4_pay4 x0 x1 a) ∗ owns (c : Thread nD τ) arg7 fullShare (k4_pay5 x1 n)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_writes_unit_zero arg6.view f5 zero_S64x128, readAt_unit_zero arg1.view f0 zero_S5000x128,
      readAt_unit_zero arg2.view f1 zero_S5000x1, readAt_unit_zero arg6.view f5 zero_S64x128]
  iexists _; isplitr
  swap; · iexact H6
  ipureintro
  rw [read_writes_unit_zero arg7.view f6 zero_S64x1, readAt_unit_zero arg2.view f1 zero_S5000x1,
    readAt_unit_zero arg7.view f6 zero_S64x1]

set_option maxHeartbeats 1000000 in

/-- The last point: the accumulators are updated and the output tile is stored. -/
theorem sound_kernel4_C (c : Dev nD) (E : Set ℕ) (i : grid4.Coords)
    (arg1 : Memref sig .tc .vmem S5000x128 .f32) (harg1 : arg1.IsWhole) (arg2 : Memref sig .tc .vmem S5000x1 .i32) (harg2 : arg2.IsWhole)
    (arg3 : Memref sig .tc .vmem S128x1 .f32) (harg3 : arg3.IsWhole) (arg4 : Memref sig .tc .vmem S1x1 .f32) (harg4 : arg4.IsWhole)
    (arg5 : Memref sig .tc .vmem S64x1 .f32) (harg5 : arg5.IsWhole) (arg6 : Memref sig .tc .vmem S64x128 .f32) (harg6 : arg6.IsWhole)
    (arg7 : Memref sig .tc .vmem S64x1 .f32) (harg7 : arg7.IsWhole) (hc0 : ¬cond4_0 i) (hc1 : cond4_1 i)
    (x0 : Vec F S5000x128 .f32) (x1 : Vec F S5000x1 .i32) (x2 : Vec F S128x1 .f32) (x3 : Vec F S1x1 .f32)
    (a : Vec F S64x128 .f32) (n : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare a ∗ owns (c : Thread nD τ) arg7 fullShare n
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k4_pay6 (k4_pay4 x0 x1 a) (k4_pay5 x1 n) x2 x3)
            ∗ owns (c : Thread nD τ) arg6 fullShare (k4_pay4 x0 x1 a) ∗ owns (c : Thread nD τ) arg7 fullShare (k4_pay5 x1 n)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0; subst hf1; subst hf2; subst hf3; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [read_writes_unit_zero arg5.view f4 zero_S64x1, View.readCov_unit_zero arg6.view zero_S64x128,
      View.readCov_unit_zero arg7.view zero_S64x1, readAt_unit_zero arg1.view f0 zero_S5000x128,
      readAt_unit_zero arg2.view f1 zero_S5000x1, readAt_unit_zero arg6.view f5 zero_S64x128,
      readAt_unit_zero arg7.view f6 zero_S64x1, readAt_unit_zero arg3.view f2 zero_S128x1,
      readAt_unit_zero arg4.view f3 zero_S1x1]
  isplitl [H5]
  · iexists _; isplitr
    swap; · iexact H5
    ipureintro
    sl_unfold_run_names
    rw [read_writes_unit_zero arg6.view f5 zero_S64x128, readAt_unit_zero arg1.view f0 zero_S5000x128,
      readAt_unit_zero arg2.view f1 zero_S5000x1, readAt_unit_zero arg6.view f5 zero_S64x128]
  iexists _; isplitr
  swap; · iexact H6
  ipureintro
  sl_unfold_run_names
  rw [read_writes_unit_zero arg7.view f6 zero_S64x1, readAt_unit_zero arg2.view f1 zero_S5000x1,
    readAt_unit_zero arg7.view f6 zero_S64x1]

/-- The sum accumulator after the body at point `n`, by recursion on `n`; `cntAt4` is the count accumulator. -/
def accAt4 (c : Dev nD) : (n : ℕ) → n < cfg4.N → Vec F S64x128 .f32
  | 0, hn => k4_pay4 (iblk4 V c 0 ⟨0, hn⟩) (iblk4 V c 1 ⟨0, hn⟩) k4_pay1
  | n + 1, hn => k4_pay4 (iblk4 V c 0 ⟨n + 1, hn⟩) (iblk4 V c 1 ⟨n + 1, hn⟩) (accAt4 c n (Nat.lt_of_succ_lt hn))

def cntAt4 (c : Dev nD) : (n : ℕ) → n < cfg4.N → Vec F S64x1 .f32
  | 0, hn => k4_pay5 (iblk4 V c 1 ⟨0, hn⟩) k4_pay2
  | n + 1, hn => k4_pay5 (iblk4 V c 1 ⟨n + 1, hn⟩) (cntAt4 c n (Nat.lt_of_succ_lt hn))

theorem accAt4_zero (c : Dev nD) (hn : 0 < cfg4.N) :
    accAt4 V c 0 hn = k4_pay4 (iblk4 V c 0 ⟨0, hn⟩) (iblk4 V c 1 ⟨0, hn⟩) k4_pay1 := rfl
theorem accAt4_succ (c : Dev nD) (n : ℕ) (hn : n + 1 < cfg4.N) :
    accAt4 V c (n + 1) hn = k4_pay4 (iblk4 V c 0 ⟨n + 1, hn⟩) (iblk4 V c 1 ⟨n + 1, hn⟩) (accAt4 V c n (Nat.lt_of_succ_lt hn)) := rfl
theorem cntAt4_zero (c : Dev nD) (hn : 0 < cfg4.N) :
    cntAt4 V c 0 hn = k4_pay5 (iblk4 V c 1 ⟨0, hn⟩) k4_pay2 := rfl
theorem cntAt4_succ (c : Dev nD) (n : ℕ) (hn : n + 1 < cfg4.N) :
    cntAt4 V c (n + 1) hn = k4_pay5 (iblk4 V c 1 ⟨n + 1, hn⟩) (cntAt4 V c n (Nat.lt_of_succ_lt hn)) := rfl

theorem accAt4_first (c : Dev nD) (t : Fin cfg4.N) (hz : t.val = 0) :
    accAt4 V c t.val t.isLt = k4_pay4 (iblk4 V c 0 t) (iblk4 V c 1 t) k4_pay1 := by
  obtain ⟨n, hn⟩ := t
  cases n with
  | zero => rfl
  | succ n => exact absurd hz (Nat.succ_ne_zero n)
theorem cntAt4_first (c : Dev nD) (t : Fin cfg4.N) (hz : t.val = 0) :
    cntAt4 V c t.val t.isLt = k4_pay5 (iblk4 V c 1 t) k4_pay2 := by
  obtain ⟨n, hn⟩ := t
  cases n with
  | zero => rfl
  | succ n => exact absurd hz (Nat.succ_ne_zero n)

theorem accAt4_later (c : Dev nD) (t : Fin cfg4.N) (hz : t.val ≠ 0) :
    accAt4 V c t.val t.isLt
      = k4_pay4 (iblk4 V c 0 t) (iblk4 V c 1 t) (accAt4 V c (t.val - 1) (Nat.lt_of_le_of_lt (Nat.sub_le _ _) t.isLt)) := by
  obtain ⟨n, hn⟩ := t
  cases n with
  | zero => exact absurd rfl hz
  | succ n => rfl
theorem cntAt4_later (c : Dev nD) (t : Fin cfg4.N) (hz : t.val ≠ 0) :
    cntAt4 V c t.val t.isLt
      = k4_pay5 (iblk4 V c 1 t) (cntAt4 V c (t.val - 1) (Nat.lt_of_le_of_lt (Nat.sub_le _ _) t.isLt)) := by
  obtain ⟨n, hn⟩ := t
  cases n with
  | zero => exact absurd rfl hz
  | succ n => rfl

def out4_4 (c : Dev nD) (t : Fin cfg4.N) : Vec F S64x1 .f32 :=
  k4_pay6 (accAt4 V c t.val t.isLt) (cntAt4 V c t.val t.isLt) (iblk4 V c 2 t) (iblk4 V c 3 t)

abbrev scM4_0 : Memref sig .tc .vmem S64x128 .f32 := Memref.whole cc4_scratch0
abbrev scM4_1 : Memref sig .tc .vmem S64x1 .f32 := Memref.whole cc4_scratch1

abbrev rest4 (c : Dev nD) : sProp 𝕄 :=
  Pipeline.scopedRestBut (Ix := Unit) (Name := ℕ) (U := UR sig nD τ) (Lvl := ℕ) (Val := Elt F) spec4 c [cc4_scratch0, cc4_scratch1]

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ rest4 (F := F) c) ∗ (∃ r, prngReg c r)) := by
  unfold Pipeline.ΦA; rw [scopedRest4_split]; simp only [scM4_0, scM4_1, rest4, owns_whole]; try rfl

/-- The region invariant: before every point but the first the two accumulators hold what the point before left. -/
def PhiS4 (c : Dev nD) : (n : ℕ) → n ≤ cfg4.N → sProp 𝕄
  | 0, _ => Pipeline.ΦA spec4 c
  | n + 1, hn => iprop(iprop(iprop(owns (c : Thread nD τ) scM4_0 fullShare (accAt4 V c n hn) ∗ owns (c : Thread nD τ) scM4_1 fullShare (cntAt4 V c n hn))
      ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (accAt4 V c n hn) ∗ owns (c : Thread nD τ) scM4_1 fullShare (cntAt4 V c n hn))
      ∗ rest4 (F := F) c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (accAt4 V c (n - 1) (by omega)) ∗ owns (c : Thread nD τ) scM4_1 fullShare (cntAt4 V c (n - 1) (by omega)))
      ∗ rest4 (F := F) c) ∗ (∃ r, prngReg c r)) := by
  cases n with
  | zero => exact absurd rfl hz
  | succ n => rfl

/-- The region's proof data: the inputs keep their blocks, the output tile is the head applied to the accumulators, and the invariant carries the accumulators from point to point. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 V c t := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)

theorem PhiS4_castSucc (c : Dev nD) (t : Fin cfg4.N) :
    (dat4 V c).Φ t.castSucc = PhiS4 V c t.val (Nat.le_of_lt t.isLt) := by
  dsimp only [dat4]; simp only [Fin.coe_castSucc]

theorem leaves4_0 (c : Dev nD) (t : Fin cfg4.N) :
    (dat4 V c).leavesExact 0 t = owns (c : Thread nD τ) (st4_0 t) fullShare (iblk4 V c 0 t) := by
  unfold Dat.leavesExact; rw [liveAt4_0 t, after4_0]
theorem leaves4_1 (c : Dev nD) (t : Fin cfg4.N) :
    (dat4 V c).leavesExact 1 t = owns (c : Thread nD τ) (st4_1 t) fullShare (iblk4 V c 1 t) := by
  unfold Dat.leavesExact; rw [liveAt4_1 t, after4_1]
theorem leaves4_2 (c : Dev nD) (t : Fin cfg4.N) :
    (dat4 V c).leavesExact 2 t = owns (c : Thread nD τ) (st4_2 t) fullShare (iblk4 V c 2 t) := by
  unfold Dat.leavesExact; rw [liveAt4_2 t, after4_2]
theorem leaves4_3 (c : Dev nD) (t : Fin cfg4.N) :
    (dat4 V c).leavesExact 3 t = owns (c : Thread nD τ) (st4_3 t) fullShare (iblk4 V c 3 t) := by
  unfold Dat.leavesExact; rw [liveAt4_3 t, after4_3]

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2, leaves4_3]
  have hN : t.val < 10 := lt_of_lt_of_eq t.isLt (show cfg4.N = 10 from N_4)
  by_cases h0 : t.val % 10 = 0
  ·
    have hz : t.val = 0 := by omega
    have h1 : ¬t.val % 10 = 9 := by omega
    have hc0 : cond4_0 (grid4.coords t) := (hcond4_0 t).mpr h0
    have hc1 : ¬cond4_1 (grid4.coords t) := fun h => h1 ((hcond4_1 t).mp h)
    rw [Dat.leavesExact_idle (dat4 V c) 4 t (idleAt4_4 t hc1) (noFlush4_4 t hc1)]
    rw [accAt4_first V c t hz, cntAt4_first V c t hz]
    rw [PhiS4_castSucc V c t, PhiS4_zero V c _ _ hz, PhiA4_eq]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (sound_kernel4_A c Set.univ _ _ _ _ _ _ _ _ _ _ _ _ _ _ _ hc0 hc1 (iblk4 V c 0 t) (iblk4 V c 1 t) (iblk4 V c 2 t) (iblk4 V c 3 t) _ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    have hc0 : ¬cond4_0 (grid4.coords t) := fun h => h0 ((hcond4_0 t).mp h)
    rw [accAt4_later V c t hz, cntAt4_later V c t hz]
    rw [PhiS4_castSucc V c t, PhiS4_pos V c _ _ hz]
    by_cases h1 : t.val % 10 = 9
    ·
      have hc1 : cond4_1 (grid4.coords t) := (hcond4_1 t).mpr h1
      rw [show (dat4 V c).leavesExact 4 t = owns (c : Thread nD τ) (st4_4 t) fullShare ((dat4 V c).after 4 t) from by
        unfold Dat.leavesExact; rw [liveAt4_4 t hc1], after4_4]
      unfold out4_4
      rw [accAt4_later V c t hz, cntAt4_later V c t hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel4_C c Set.univ _ _ _ _ _ _ _ _ _ _ _ _ _ _ _ hc0 hc1 (iblk4 V c 0 t) (iblk4 V c 1 t) (iblk4 V c 2 t) (iblk4 V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4
    ·
      have hc1 : ¬cond4_1 (grid4.coords t) := fun h => h1 ((hcond4_1 t).mp h)
      rw [Dat.leavesExact_idle (dat4 V c) 4 t (idleAt4_4 t hc1) (noFlush4_4 t hc1)]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel4_B c Set.univ _ _ _ _ _ _ _ _ _ _ _ _ _ _ _ hc0 hc1 (iblk4 V c 0 t) (iblk4 V c 1 t) (iblk4 V c 2 t) (iblk4 V c 3 t) _ _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexists _; iexact H4

/-- The body obligation at every grid point. -/
theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

theorem hout4 (c : Dev nD) : (dat4 V c).Φ (Fin.last cfg4.N) ⊢ Pipeline.ΦA spec4 c :=
  Phi_out4 V c _ (by rw [Fin.val_last]; have : cfg4.N = 10 := N_4; omega)

end Cert.Kernel.Hand

end
-- ==== Proof.LibRegion.lean ====
import Idealize.ShloMosaic.Lib.Pipeline.Frame
import Idealize.ShloMosaic.Lib.Pipeline.FrameSuffix
import Idealize.ShloMosaic.Lib.Pipeline.Kit
import Idealize.ShloMosaic.Lib.Pipeline.Regions
import Idealize.ShloMosaic.Lib.Pipeline.RegionsLoop

noncomputable section

namespace Idealize.ShloMosaic.Pipeline

open Idealize.SL Idealize.SL.RA Idealize.SL.BI
open scoped Idealize.SL.BI
open Idealize.SL.BI.BIBase Idealize.SL.BI.Laws Idealize.SL.ProofMode Idealize.SL.Sem
open Idealize.ShloMosaic.Rounds TcCoe

variable {nD : Nat} {τ : Topo} {sig : RefSig} {Val : EltTy → Type} {U : Type} [URA U]
variable {Λ₀ : SL.Sem.Labels} {P : Type} [Fintype P]

local notation "𝕄" => MT nD τ sig Unit Val ℕ U ℕ

/-- A region rewrites only its output windows' arrays: a buffer that is none of them leaves as it entered. -/
theorem withArrays_keep {cfg : Cfg sig Λ₀} {c : Dev nD} (dat : Dat τ Val Unit ℕ U ℕ cfg c)
    (hinj : Function.Injective (arrRef cfg.spec)) (W : Valuation τ sig Val)
    (hA : ∀ w, dat.A w = W (Proc.devRef .tc (arrRef cfg.spec w))) (b : Ref sig .tc)
    (hb : ∀ w, (cfg.win w).isOut = true → arrRef cfg.spec w ≠ b) :
    withArrays cfg.spec c W (fun w => dat.arrAt w cfg.N) (Proc.devRef .tc b) = W (Proc.devRef .tc b) := by
  by_cases h : ∃ w, arrRef cfg.spec w = b
  · obtain ⟨w, rfl⟩ := h
    have hin : (cfg.win w).isOut = false := by
      cases hw : (cfg.win w).isOut with
      | false => rfl
      | true => exact absurd rfl (hb w hw)
    exact (withArrays_arr cfg.spec hinj c _ _ w).trans ((dat.arrAt_in w hin _).trans (hA w))
  · exact withArrays_of_ne cfg.spec c _ _ b fun w e => h ⟨w, e⟩

theorem prefHeld_none (pre : Prefetch sig) (hK : pre.K = 0) (c : Dev nD) (q : Fin pre.K → PosShare TreeShare)
    (V : pre.Contents Val) : (prefHeld pre c q V : sProp 𝕄) = BI.emp := by
  unfold prefHeld
  haveI : IsEmpty (Fin pre.K) := by rw [hK]; infer_instance
  rw [Finset.univ_eq_empty, BI.bigSep_empty]

variable (pcs : P → PCfg sig Λ₀ Val) (a : (p : P) → (pcs p).Adm)
  (pdats : (p : P) → (c : Dev nD) → Dat τ Val Unit ℕ U ℕ (pin pcs a p) c)
  (defs₀ : Defs nD τ sig Val Λ₀) (𝒱₀ : Variants)
  (L : GSem nD τ sig → Finset Unit) (lv : GSem nD τ sig → Unit → ℕ)

abbrev rest (c : Dev nD) : sProp 𝕄 := iprop((∃ r, prngReg c r) ∗ ∃ W, owes (c : Thread nD τ) (0 : CellTallies nD τ sig Unit) W)

set_option backward.isDefEq.respectTransparency.types false in
/-- A kernel region as a step of @main between two valuations of the core's buffers: the region's arrays end at the
    proof data's final contents, every other buffer is unchanged. -/
def RegionSeg.ofHeld (p : P) (hw : WinFacts (pin pcs a p).spec)
    (hpos : ∀ w : Fin (pin pcs a p).W, 0 < ((pin pcs a p).spec w).block.numel)
    (hstage : ∀ (w : Fin (pin pcs a p).W) (s : Fin ((pin pcs a p).spec w).nbuf), (((pin pcs a p).spec w).stage s).IsWhole)
    (harr : ∀ w, ((pin pcs a p).spec w).arr.IsWhole) (hK : (pcs p).pre.K = 0)
    (hbody : ∀ c, BodyObligationLoose (pdats p c) defs₀ 𝒱₀ () Set.univ)
    (howed : ∀ c t, (pdats p c).owed t = 0) (hrec : ∀ c t, (pdats p c).recorded t = Set.univ)
    (hq : ∀ c w, (pdats p c).q w = fullShare)
    (W W' : Dev nD → Valuation τ sig Val)
    (hA : ∀ c w, (pdats p c).A w = W c (Proc.devRef .tc (arrRef (pin pcs a p).spec w)))
    (hW' : ∀ c, W' c = withArrays (pin pcs a p).spec c (W c) fun w => (pdats p c).arrAt w (pin pcs a p).N)
    (hΦ0 : ∀ c, ΦA (pin pcs a p).spec c ⊢ (pdats p c).Φ 0)
    (hΦN : ∀ c, (pdats p c).Φ (Fin.last _) ⊢ ΦA (pin pcs a p).spec c) :
    RegionSeg pcs a pdats () defs₀ 𝒱₀ L lv p where
  win := hw.to₀
  block_pos := hpos
  stage_whole := hstage
  K := PEmpty
  osem k := k.elim
  ho := OwnSemFacts.none _
  hbody := hbody
  hwaits := hwaits_of_owed_zero _ _ _ _ L lv p howed
  pre c := iprop(StableHlo.held (c : Thread nD τ) (ucRefs τ sig) (W c) ∗ rest c)
  post c := iprop(StableHlo.held (c : Thread nD τ) (ucRefs τ sig) (W' c) ∗ rest c)
  X c := iprop(∃ r, prngReg c r)
  Y c := iprop(∃ r, prngReg c r)
  Z c := unscopedRest (Ix := Unit) (Name := ℕ) (U := U) (Lvl := ℕ) (pin pcs a p).spec c (fun b => W c b)
  hentry c := by
    rw [ownSems0_none, prefHeld_none _ hK]
    have hsplit := arrays_of_unscopedBufs (p := p) pcs a pdats hw harr c
      ((pdats p c).share_full (hq c)) (fun b => W c b) (hA c)
    rw [unscopedBufs_held] at hsplit
    iintro ⟨⟨Hub, Hp, HO⟩, -, -⟩
    ihave H := hsplit $$ Hub
    icases H with ⟨Ha, Hrest⟩
    imodintro
    isplitl [Ha]; · iexact Ha
    isplitr; · iempintro
    isplitl [HO]
    · unfold Dat.owesAt owesWithin
      rw [howed]
      icases HO with ⟨%W, HO⟩; iexists W; isplitr; · ipureintro; exact fun _ _ => Or.inl (by rw [hrec]; trivial)
      iexact HO
    isplitl [Hp]; · iexact Hp
    iexact Hrest
  hin c := by
    rw [prefHeld_none _ hK]
    refine (?_ : _ ⊢ ΦA (pin pcs a p).spec c).trans (hΦ0 c)
    unfold ΦA
    iintro ⟨Hp, -, Hr⟩
    isplitl [Hr]; · iexact Hr
    iexact Hp
  hout c := by
    rw [ownSems0_none]
    refine (hΦN c).trans ?_
    unfold ΦA
    iintro ⟨Hr, Hp⟩
    isplitl [Hp]; · iexact Hp
    isplitr; · iempintro
    iexact Hr
  hexit c := by
    have hjoin := unscopedBufs_of_arrays pcs a (p := p) (Ix := Unit) (Name := ℕ) (U := U) (Lvl := ℕ)
      hw harr c pdats ((pdats p c).share_full (hq c))
      (fun b => W c b) (fun b => W' c b) ((pdats p c).arrAt · (pin pcs a p).N)
      (fun w => by rw [hW']; exact (withArrays_arr _ hw.arr_inj c (W c) (fun w => (pdats p c).arrAt w (pin pcs a p).N) w).symm)
      (fun b hb => by
        rw [hW']; exact withArrays_of_ne _ c _ _ b fun w e => hb (Finset.mem_image.mpr ⟨w, Finset.mem_univ _, e⟩))
    rw [unscopedBufs_held] at hjoin
    iintro ⟨Ha, HO, HY, Hrest⟩
    imodintro
    isplitl [Ha Hrest]
    · iapply hjoin; isplitl [Ha] <;> iassumption
    isplitl [HY]; · iexact HY
    unfold Dat.owesAt owesWithin
    rw [howed]
    icases HO with ⟨%W, -, HO⟩; iexists W; iexact HO

end Idealize.ShloMosaic.Pipeline

end
-- ==== Proof.K.Run.lean ====
import proofs.«422729_j12214886989913_2_alg».proof.Proof.K.Reg0
import proofs.«422729_j12214886989913_2_alg».proof.Proof.K.Reg1
import proofs.«422729_j12214886989913_2_alg».proof.Proof.K.Reg2
import proofs.«422729_j12214886989913_2_alg».proof.Proof.K.Reg3
import proofs.«422729_j12214886989913_2_alg».proof.Proof.K.Reg4
import proofs.«422729_j12214886989913_2_alg».proof.Proof.Gen.Kernel.Regions
import proofs.«422729_j12214886989913_2_alg».proof.Proof.LibRegion

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch; `W(2k+1)` after the host stretch before region k, `W(2k+2)` at region k's exit. -/
abbrev W0 (c : Dev nD) : Valuation τ sig (Elt F) := fun b => m (c, b)

abbrev W1 (c : Dev nD) : Valuation τ sig (Elt F) := StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_keep (c : Dev nD) (b : Ref sig .tc) (hb : ∀ w : Fin cfg0.W, (cfg0.win w).isOut = true → Pipeline.arrRef spec0 w ≠ b) :
    W2 m c (Proc.devRef .tc b) = W1 m c (Proc.devRef .tc b) := by
  unfold W2; exact Pipeline.withArrays_keep (dat0 (V1 m) c) launch0.win.arr_inj _ (A_eq0 (V1 m) c) b hb

abbrev W3 (c : Dev nD) : Valuation τ sig (Elt F) := StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_keep (c : Dev nD) (b : Ref sig .tc) (hb : ∀ w : Fin cfg1.W, (cfg1.win w).isOut = true → Pipeline.arrRef spec1 w ≠ b) :
    W4 m c (Proc.devRef .tc b) = W3 m c (Proc.devRef .tc b) := by
  unfold W4; exact Pipeline.withArrays_keep (dat1 (V3 m) c) launch1.win.arr_inj _ (A_eq1 (V3 m) c) b hb

abbrev W5 (c : Dev nD) : Valuation τ sig (Elt F) := StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_keep (c : Dev nD) (b : Ref sig .tc) (hb : ∀ w : Fin cfg2.W, (cfg2.win w).isOut = true → Pipeline.arrRef spec2 w ≠ b) :
    W6 m c (Proc.devRef .tc b) = W5 m c (Proc.devRef .tc b) := by
  unfold W6; exact Pipeline.withArrays_keep (dat2 (V5 m) c) launch2.win.arr_inj _ (A_eq2 (V5 m) c) b hb

abbrev W7 (c : Dev nD) : Valuation τ sig (Elt F) := StableHlo.after hostOps3 (W6 m c)
abbrev V7 : (c : Dev nD) → (b : Ref sig .tc) → Buf (Elt F) ((c : Thread nD τ).loc b) := fun c b => W7 m c b
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_keep (c : Dev nD) (b : Ref sig .tc) (hb : ∀ w : Fin cfg3.W, (cfg3.win w).isOut = true → Pipeline.arrRef spec3 w ≠ b) :
    W8 m c (Proc.devRef .tc b) = W7 m c (Proc.devRef .tc b) := by
  unfold W8; exact Pipeline.withArrays_keep (dat3 (V7 m) c) launch3.win.arr_inj _ (A_eq3 (V7 m) c) b hb

abbrev W9 (c : Dev nD) : Valuation τ sig (Elt F) := StableHlo.after hostOps4 (W8 m c)
abbrev V9 : (c : Dev nD) → (b : Ref sig .tc) → Buf (Elt F) ((c : Thread nD τ).loc b) := fun c b => W9 m c b
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_keep (c : Dev nD) (b : Ref sig .tc) (hb : ∀ w : Fin cfg4.W, (cfg4.win w).isOut = true → Pipeline.arrRef spec4 w ≠ b) :
    W10 m c (Proc.devRef .tc b) = W9 m c (Proc.devRef .tc b) := by
  unfold W10; exact Pipeline.withArrays_keep (dat4 (V9 m) c) launch4.win.arr_inj _ (A_eq4 (V9 m) c) b hb

/-- `b` is no region's output array and no host stretch writes it. -/
abbrev Kept (b : Ref sig .tc) : Prop :=
  (∀ w : Fin cfg0.W, (cfg0.win w).isOut = true → Pipeline.arrRef spec0 w ≠ b) ∧ b ∉ hostOps0_W
  ∧ (∀ w : Fin cfg1.W, (cfg1.win w).isOut = true → Pipeline.arrRef spec1 w ≠ b) ∧ b ∉ hostOps1_W
  ∧ (∀ w : Fin cfg2.W, (cfg2.win w).isOut = true → Pipeline.arrRef spec2 w ≠ b) ∧ b ∉ hostOps2_W
  ∧ (∀ w : Fin cfg3.W, (cfg3.win w).isOut = true → Pipeline.arrRef spec3 w ≠ b) ∧ b ∉ hostOps3_W
  ∧ (∀ w : Fin cfg4.W, (cfg4.win w).isOut = true → Pipeline.arrRef spec4 w ≠ b) ∧ b ∉ hostOps4_W

section
variable (c : Dev nD) (b : Ref sig .tc) (h : Kept b)
include h

/-- A kept buffer holds its launch contents at every boundary. -/
theorem W1_kept : W1 m c (Proc.devRef .tc b) = m ((c : Thread nD τ).loc b) := (StableHlo.after_of_writes_sub hostOps0 _ hostOps0_writes h.2.1).trans rfl
theorem W2_kept : W2 m c (Proc.devRef .tc b) = m ((c : Thread nD τ).loc b) := (W2_keep m c b h.1).trans (W1_kept m c b h)
theorem W3_kept : W3 m c (Proc.devRef .tc b) = m ((c : Thread nD τ).loc b) := (StableHlo.after_of_writes_sub hostOps1 _ hostOps1_writes h.2.2.2.1).trans (W2_kept m c b h)
theorem W4_kept : W4 m c (Proc.devRef .tc b) = m ((c : Thread nD τ).loc b) := (W4_keep m c b h.2.2.1).trans (W3_kept m c b h)
theorem W5_kept : W5 m c (Proc.devRef .tc b) = m ((c : Thread nD τ).loc b) := (StableHlo.after_of_writes_sub hostOps2 _ hostOps2_writes h.2.2.2.2.2.1).trans (W4_kept m c b h)
theorem W6_kept : W6 m c (Proc.devRef .tc b) = m ((c : Thread nD τ).loc b) := (W6_keep m c b h.2.2.2.2.1).trans (W5_kept m c b h)
theorem W7_kept : W7 m c (Proc.devRef .tc b) = m ((c : Thread nD τ).loc b) := (StableHlo.after_of_writes_sub hostOps3 _ hostOps3_writes h.2.2.2.2.2.2.2.1).trans (W6_kept m c b h)
theorem W8_kept : W8 m c (Proc.devRef .tc b) = m ((c : Thread nD τ).loc b) := (W8_keep m c b h.2.2.2.2.2.2.1).trans (W7_kept m c b h)
theorem W9_kept : W9 m c (Proc.devRef .tc b) = m ((c : Thread nD τ).loc b) := (StableHlo.after_of_writes_sub hostOps4 _ hostOps4_writes h.2.2.2.2.2.2.2.2.2).trans (W8_kept m c b h)
theorem W10_kept : W10 m c (Proc.devRef .tc b) = m ((c : Thread nD τ).loc b) := (W10_keep m c b h.2.2.2.2.2.2.2.2.1).trans (W9_kept m c b h)

end

abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
abbrev 𝒱₀ : Variants := Variants.none
abbrev L : GSem nD τ sig → Finset Unit := fun _ => ∅
abbrev lv : GSem nD τ sig → Unit → ℕ := fun _ _ => 0
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Pipeline.rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

set_option backward.isDefEq.respectTransparency.types false in
def reg0 : Pipeline.RegionSeg (pcfgs (F := F)) adm (pdats m) () defs₀ 𝒱₀ L lv 0 :=
  .ofHeld _ _ _ _ _ L lv 0 launch0.win launch0.block_pos launch0.stage_whole launch0.arr_whole rfl
    (fun c => (body_obligation0 (V1 m) c).loose) (fun _ _ => rfl) (fun _ _ => rfl) (fun _ _ => rfl)
    (W1 m) (W2 m) (A_eq0 (V1 m)) (fun _ => rfl) (fun _ => .rfl) (fun _ => .rfl)

set_option backward.isDefEq.respectTransparency.types false in
def reg1 : Pipeline.RegionSeg (pcfgs (F := F)) adm (pdats m) () defs₀ 𝒱₀ L lv 1 :=
  .ofHeld _ _ _ _ _ L lv 1 launch1.win launch1.block_pos launch1.stage_whole launch1.arr_whole rfl
    (fun c => (body_obligation1 (V3 m) c).loose) (fun _ _ => rfl) (fun _ _ => rfl) (fun _ _ => rfl)
    (W3 m) (W4 m) (A_eq1 (V3 m)) (fun _ => rfl) (fun _ => .rfl) (fun _ => .rfl)

set_option backward.isDefEq.respectTransparency.types false in
def reg2 : Pipeline.RegionSeg (pcfgs (F := F)) adm (pdats m) () defs₀ 𝒱₀ L lv 2 :=
  .ofHeld _ _ _ _ _ L lv 2 launch2.win launch2.block_pos launch2.stage_whole launch2.arr_whole rfl
    (fun c => (body_obligation2 (V5 m) c).loose) (fun _ _ => rfl) (fun _ _ => rfl) (fun _ _ => rfl)
    (W5 m) (W6 m) (A_eq2 (V5 m)) (fun _ => rfl) (fun _ => .rfl) (fun _ => .rfl)

set_option backward.isDefEq.respectTransparency.types false in
def reg3 : Pipeline.RegionSeg (pcfgs (F := F)) adm (pdats m) () defs₀ 𝒱₀ L lv 3 :=
  .ofHeld _ _ _ _ _ L lv 3 launch3.win launch3.block_pos launch3.stage_whole launch3.arr_whole rfl
    (fun c => (body_obligation3 (V7 m) c).loose) (fun _ _ => rfl) (fun _ _ => rfl) (fun _ _ => rfl)
    (W7 m) (W8 m) (A_eq3 (V7 m)) (fun _ => rfl) (fun _ => .rfl) (fun _ => .rfl)

set_option backward.isDefEq.respectTransparency.types false in
def reg4 : Pipeline.RegionSeg (pcfgs (F := F)) adm (pdats m) () defs₀ 𝒱₀ L lv 4 :=
  .ofHeld _ _ _ _ _ L lv 4 launch4.win launch4.block_pos launch4.stage_whole launch4.arr_whole rfl
    (fun c => (body_obligation4 (V9 m) c).loose) (fun _ _ => rfl) (fun _ _ => rfl) (fun _ _ => rfl)
    (W9 m) (W10 m) (A_eq4 (V9 m)) (fun _ => rfl) (hin4 (V9 m)) (hout4 (V9 m))

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m) ]

set_option backward.isDefEq.respectTransparency.types false in
/-- Every weakly fair execution of @main ends with every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Pipeline.rest c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl,
      fun c => by
        show iprop(_ ∗ Pipeline.rest c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-- The result array ends at region 4's output array, and every argument array ends as launched. -/
theorem run : θ_run defs (onTc (τ := τ) (main (F := F))) ⟨m, fun _ => 0, ρ⟩ (fun r => ∀ c : Dev nD,
      r.2.mem ((c.tc : Thread nD τ).loc main_v128) = (dat4 (V9 m) c).arrAt 4 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c _ (mem_uc main_v128 (by decide))).trans (W10_arr m c 4),
     (h c _ (mem_uc main_arg0 (by decide))).trans (W10_kept m c main_arg0 (by decide)),
     (h c _ (mem_uc main_arg1 (by decide))).trans (W10_kept m c main_arg1 (by decide)),
     (h c _ (mem_uc main_arg2 (by decide))).trans (W10_kept m c main_arg2 (by decide)),
     (h c _ (mem_uc main_arg3 (by decide))).trans (W10_kept m c main_arg3 (by decide)),
     (h c _ (mem_uc main_arg4 (by decide))).trans (W10_kept m c main_arg4 (by decide)),
     (h c _ (mem_uc main_arg5 (by decide))).trans (W10_kept m c main_arg5 (by decide)),
     (h c _ (mem_uc main_arg6 (by decide))).trans (W10_kept m c main_arg6 (by decide)),
     (h c _ (mem_uc main_arg7 (by decide))).trans (W10_kept m c main_arg7 (by decide)),
     (h c _ (mem_uc main_arg8 (by decide))).trans (W10_kept m c main_arg8 (by decide)),
     (h c _ (mem_uc main_arg9 (by decide))).trans (W10_kept m c main_arg9 (by decide)),
     (h c _ (mem_uc main_arg10 (by decide))).trans (W10_kept m c main_arg10 (by decide)),
     (h c _ (mem_uc main_arg11 (by decide))).trans (W10_kept m c main_arg11 (by decide))⟩) (run_all m ρ)

end Cert.Kernel.Hand

end
-- ==== Proof.KI.Reg0.lean ====
import proofs.«422729_j12214886989913_2_alg».proof.Proof.Gen.KernelIdeal.Launch
import proofs.«422729_j12214886989913_2_alg».proof.Proof.Gen.KernelIdeal.Skeleton
import proofs.«422729_j12214886989913_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_t : Rect S5000x128 := Rect.unit (s := S5000x128) ![0, 0] S5000x128.size inb_S5000x128_S5000x128_0_0
abbrev r0_w : Rect S128x128 := Rect.unit (s := S128x128) ![0, 0] S128x128.size inb_S128x128_S128x128_0_0

/-- The output tile after the body: its one whole-tile store. -/
def out0_2 (x0 : Vec F S5000x128 .f32) (x1 : Vec F S128x128 .f32) : Vec F S5000x128 .f32 :=
  View.canon [⟨r0_t, k0_pay1 (View.ld x0 r0_t) (View.ld x1 r0_w)⟩]

theorem cover0_2 (p0 : Vec F S5000x128 .f32) (y : S5000x128.Idx) :
    ∃ pc ∈ ([⟨r0_t, p0⟩] : List (View.Piece (Elt F) S5000x128 .f32)), y ∈ pc.1.set :=
  View.cover_of_tiled [⟨r0_t, p0⟩] S5000x128.size (by rfl) y

set_option maxHeartbeats 1000000 in

/-- The body on whole tiles: the inputs are left as they were, the output ends at `out0_2`. -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The region's proof data: every input window keeps its block, every output window ends at the body's store. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
import proofs.«422729_j12214886989913_2_alg».proof.Proof.Gen.KernelIdeal.Launch
import proofs.«422729_j12214886989913_2_alg».proof.Proof.Gen.KernelIdeal.Skeleton
import proofs.«422729_j12214886989913_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_t : Rect S5000x128 := Rect.unit (s := S5000x128) ![0, 0] S5000x128.size inb_S5000x128_S5000x128_0_0
abbrev r1_d : Rect S5000x1 := Rect.unit (s := S5000x1) ![0, 0] S5000x1.size inb_S5000x1_S5000x1_0_0
abbrev r1_b : Rect S1x128 := Rect.unit (s := S1x128) ![0, 0] S1x128.size inb_S1x128_S1x128_0_0
abbrev r1_w : Rect S128x128 := Rect.unit (s := S128x128) ![0, 0] S128x128.size inb_S128x128_S128x128_0_0

/-- The two output tiles after the body: each is one whole-tile store. -/
def out1_5 (x0 x1 : Vec F S5000x128 .f32) (x2 : Vec F S5000x1 .f32) (x3 : Vec F S1x128 .f32) : Vec F S5000x128 .f32 :=
  View.canon [⟨r1_t, k1_pay1 (View.ld x2 r1_d) (View.ld x2 r1_d) (View.ld x3 r1_b) (View.ld x0 r1_t) (View.ld x1 r1_t)⟩]

def out1_6 (x0 x1 : Vec F S5000x128 .f32) (x2 : Vec F S5000x1 .f32) (x3 : Vec F S1x128 .f32) (x4 : Vec F S128x128 .f32) : Vec F S5000x128 .f32 :=
  View.canon [⟨r1_t, k1_pay2 (View.ld x2 r1_d) (View.ld x2 r1_d) (View.ld x3 r1_b) (View.ld x0 r1_t) (View.ld x1 r1_t) (View.ld x4 r1_w)⟩]

theorem cover1_5 (p0 : Vec F S5000x128 .f32) (y : S5000x128.Idx) :
    ∃ pc ∈ ([⟨r1_t, p0⟩] : List (View.Piece (Elt F) S5000x128 .f32)), y ∈ pc.1.set :=
  View.cover_of_tiled [⟨r1_t, p0⟩] S5000x128.size (by rfl) y

theorem cover1_6 (p0 : Vec F S5000x128 .f32) (y : S5000x128.Idx) :
    ∃ pc ∈ ([⟨r1_t, p0⟩] : List (View.Piece (Elt F) S5000x128 .f32)), y ∈ pc.1.set :=
  View.cover_of_tiled [⟨r1_t, p0⟩] S5000x128.size (by rfl) y

set_option maxHeartbeats 1000000 in

/-- The body on whole tiles: the inputs are left as they were, the outputs end at `out1_5` and `out1_6`. -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S5000x128 .f32) (harg6 : arg6.IsWhole) (arg7 : Memref sig .tc .vmem S5000x128 .f32) (harg7 : arg7.IsWhole)
    (x0 : Vec F S5000x128 .f32) (x1 : Vec F S5000x128 .f32) (x2 : Vec F S5000x1 .f32) (x3 : Vec F S1x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3) ∗ owns (c : Thread nD τ) arg7 fullShare (out1_6 x0 x1 x2 x3 x4)) -∗ K ⟨⟩))
      ⊢ wp frame (wpE (defs₀ (F := F)) Variants.none c none) E (cc1__combine_linear_kernel i arg1 harg1 arg2 harg2 arg3 harg3 arg4 harg4 arg5 harg5 arg6 harg6 arg7 harg7) K := by
  simp only [cc1__combine_linear_kernel_eq_skeleton]; unfold cc1__combine_linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_5 _)
  iexists _; isplitr
  swap; · iexact H6
  ipureintro
  exact View.read_writes_eq_canon _ _ _ (cover1_6 _)

/-- The region's proof data: every input window keeps its block, every output window ends at the body's store. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
import proofs.«422729_j12214886989913_2_alg».proof.Proof.KI.Reg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Region 2 runs region 1's kernel function on its own arrays: the proof data have region 1's stores. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out1_5 (iblk2 V c 0 t) (iblk2 V c 1 t) (iblk2 V c 2 t) (iblk2 V c 3 t)
    | ⟨6, _⟩ => out1_6 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out1_5 (iblk2 V c 0 t) (iblk2 V c 1 t) (iblk2 V c 2 t) (iblk2 V c 3 t) := by dsimp only [dat2]
theorem after2_6 (c : Dev nD) (t : Fin cfg2.N) : (dat2 V c).after 6 t = out1_6 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  rw [show cc2__combine_linear_kernel (F := F) = cc1__combine_linear_kernel (F := F) from rfl]
  iapply (sound_kernel1 c Set.univ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
import proofs.«422729_j12214886989913_2_alg».proof.Proof.Gen.KernelIdeal.Launch
import proofs.«422729_j12214886989913_2_alg».proof.Proof.Gen.KernelIdeal.Skeleton
import proofs.«422729_j12214886989913_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_t : Rect S5000x128 := Rect.unit (s := S5000x128) ![0, 0] S5000x128.size inb_S5000x128_S5000x128_0_0
abbrev r3_d : Rect S5000x1 := Rect.unit (s := S5000x1) ![0, 0] S5000x1.size inb_S5000x1_S5000x1_0_0
abbrev r3_b : Rect S1x128 := Rect.unit (s := S1x128) ![0, 0] S1x128.size inb_S1x128_S1x128_0_0

/-- The output tile after the body: its one whole-tile store. -/
def out3_4 (x0 x1 : Vec F S5000x128 .f32) (x2 : Vec F S5000x1 .f32) (x3 : Vec F S1x128 .f32) : Vec F S5000x128 .f32 :=
  View.canon [⟨r3_t, k3_pay1 (View.ld x2 r3_d) (View.ld x2 r3_d) (View.ld x3 r3_b) (View.ld x0 r3_t) (View.ld x1 r3_t)⟩]

theorem cover3_4 (p0 : Vec F S5000x128 .f32) (y : S5000x128.Idx) :
    ∃ pc ∈ ([⟨r3_t, p0⟩] : List (View.Piece (Elt F) S5000x128 .f32)), y ∈ pc.1.set :=
  View.cover_of_tiled [⟨r3_t, p0⟩] S5000x128.size (by rfl) y

set_option maxHeartbeats 1000000 in

/-- The body on whole tiles: the inputs are left as they were, the output ends at `out3_4`. -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S5000x1 .f32) (harg3 : arg3.IsWhole) (arg4 : Memref sig .tc .vmem S1x128 .f32) (harg4 : arg4.IsWhole) (arg5 : Memref sig .tc .vmem S5000x128 .f32) (harg5 : arg5.IsWhole)
    (x0 : Vec F S5000x128 .f32) (x1 : Vec F S5000x128 .f32) (x2 : Vec F S5000x1 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out3_4 x0 x1 x2 x3)) -∗ K ⟨⟩))
      ⊢ wp frame (wpE (defs₀ (F := F)) Variants.none c none) E (cc3__combine_kernel i arg1 harg1 arg2 harg2 arg3 harg3 arg4 harg4 arg5 harg5) K := by
  simp only [cc3__combine_kernel_eq_skeleton]; unfold cc3__combine_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_4 _)

/-- The region's proof data: every input window keeps its block, every output window ends at the body's store. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => out3_4 (iblk3 V c 0 t) (iblk3 V c 1 t) (iblk3 V c 2 t) (iblk3 V c 3 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = out3_4 (iblk3 V c 0 t) (iblk3 V c 1 t) (iblk3 V c 2 t) (iblk3 V c 3 t) := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl) (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl) (fun t => by rw [after3_3]; unfold Dat.blockOf iblk3; rw [A_eq3]; try rfl) t d).trans
    (by unfold Dat.fetched Dat.blockOf iblk3; rw [A_eq3]; try rfl)

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  iintro ⟨HΦ, Ho, ⟨%d0, H0⟩, ⟨%d1, H1⟩, ⟨%d2, H2⟩, ⟨%d3, H3⟩, ⟨%d4, H4⟩⟩
  iapply (sound_kernel3 c Set.univ _ _ _ _ _ _ _ _ _ _ _ (iblk3 V c 0 t) (iblk3 V c 1 t) (iblk3 V c 2 t) (iblk3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation at every grid point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
import proofs.«422729_j12214886989913_2_alg».proof.Proof.Gen.KernelIdeal.Launch
import proofs.«422729_j12214886989913_2_alg».proof.Proof.Gen.KernelIdeal.Skeleton
import proofs.«422729_j12214886989913_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev cond4_0 (i : grid4.Coords) : Prop := (Scalar.cmpi .ne (Scalar.extui (Scalar.cmpi .eq (BitVec.ofNat 32 (i 0).val) 0#32)) 0#32) = 1#1

/-- The two branch conditions over the grid: the first holds at the first of the ten points only, the second at the last only. -/
theorem hcond4_0 : ∀ t : Fin cfg4.N, cond4_0 (grid4.coords t) ↔ t.val % 10 = 0 :=
  (by decide +kernel : ∀ t : Fin grid4.N, cond4_0 (grid4.coords t) ↔ t.val % 10 = 0)

abbrev cond4_1 (i : grid4.Coords) : Prop := k4_cond2 i = 1#1

theorem hcond4_1 : ∀ t : Fin cfg4.N, cond4_1 (grid4.coords t) ↔ t.val % 10 = 9 :=
  (by decide +kernel : ∀ t : Fin grid4.N, cond4_1 (grid4.coords t) ↔ t.val % 10 = 9)

theorem liveAt4_0 : ∀ t : Fin cfg4.N, cfg4.idle 0 (grid4.coords t) = false := fun _ => rfl
theorem liveAt4_1 : ∀ t : Fin cfg4.N, cfg4.idle 1 (grid4.coords t) = false := fun _ => rfl
theorem liveAt4_2 : ∀ t : Fin cfg4.N, cfg4.idle 2 (grid4.coords t) = false := fun _ => rfl
theorem liveAt4_3 : ∀ t : Fin cfg4.N, cfg4.idle 3 (grid4.coords t) = false := fun _ => rfl

theorem idleAt4_4 : ∀ t : Fin cfg4.N, ¬cond4_1 (grid4.coords t) → cfg4.idle 4 (grid4.coords t) = true := by decide +kernel

theorem noFlush4_4 : ∀ t : Fin cfg4.N, ¬cond4_1 (grid4.coords t) → (cfg4.win 4).flush t = false := by decide +kernel

theorem liveAt4_4 : ∀ t : Fin cfg4.N, cond4_1 (grid4.coords t) → cfg4.idle 4 (grid4.coords t) = false := by decide +kernel

theorem zero_S5000x128 : (![0, 0] : Fin S5000x128.rank → ℕ) = fun _ => 0 := by funext a; fin_cases a <;> rfl
theorem zero_S5000x1 : (![0, 0] : Fin S5000x1.rank → ℕ) = fun _ => 0 := by funext a; fin_cases a <;> rfl
theorem zero_S128x1 : (![0, 0] : Fin S128x1.rank → ℕ) = fun _ => 0 := by funext a; fin_cases a <;> rfl
theorem zero_S1x1 : (![0, 0] : Fin S1x1.rank → ℕ) = fun _ => 0 := by funext a; fin_cases a <;> rfl
theorem zero_S64x1 : (![0, 0] : Fin S64x1.rank → ℕ) = fun _ => 0 := by funext a; fin_cases a <;> rfl
theorem zero_S64x128 : (![0, 0] : Fin S64x128.rank → ℕ) = fun _ => 0 := by funext a; fin_cases a <;> rfl

theorem readAt_unit_zero {sig' : RefSig} {κ : Kind} {sp : Space} {S : Shape} {e : EltTy} (v : View sig' κ sp S e) (f : v.ty.Contents (Elt F))
    {off : Fin S.rank → ℕ} (h : off = fun _ => 0) (inb : ∀ a, off a + S.size a ≤ S.size a) :
    v.readAt (Elt F) (Rect.unit off S.size inb).toLoadRect f = v.read (Elt F) f :=
  View.ld_unit_zero h inb (v.read (Elt F) f)

theorem read_writes_unit_zero {sig' : RefSig} {κ : Kind} {sp : Space} {S : Shape} {e : EltTy} (v : View sig' κ sp S e) (f : v.ty.Contents (Elt F))
    {off : Fin S.rank → ℕ} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero h inb y⟩),
    View.canon_cons_unit_zero h inb w L]

set_option maxHeartbeats 1000000 in

/-- The first point: both accumulators are reset, then updated; the output tile is left as found. -/
theorem sound_kernel4_A (c : Dev nD) (E : Set ℕ) (i : grid4.Coords)
    (arg1 : Memref sig .tc .vmem S5000x128 .f32) (harg1 : arg1.IsWhole) (arg2 : Memref sig .tc .vmem S5000x1 .i32) (harg2 : arg2.IsWhole)
    (arg3 : Memref sig .tc .vmem S128x1 .f32) (harg3 : arg3.IsWhole) (arg4 : Memref sig .tc .vmem S1x1 .f32) (harg4 : arg4.IsWhole)
    (arg5 : Memref sig .tc .vmem S64x1 .f32) (harg5 : arg5.IsWhole) (arg6 : Memref sig .tc .vmem S64x128 .f32) (harg6 : arg6.IsWhole)
    (arg7 : Memref sig .tc .vmem S64x1 .f32) (harg7 : arg7.IsWhole) (hc0 : cond4_0 i) (hc1 : ¬cond4_1 i)
    (x0 : Vec F S5000x128 .f32) (x1 : Vec F S5000x1 .i32) (x2 : Vec F S128x1 .f32) (x3 : Vec F S1x1 .f32) (xi4 : Vec F S64x1 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
            ∗ owns (c : Thread nD τ) arg6 fullShare (k4_pay4 x0 x1 k4_pay1) ∗ owns (c : Thread nD τ) arg7 fullShare (k4_pay5 x1 k4_pay2)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0; subst hf1; subst hf2; subst hf3; subst hf4
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    sl_unfold_run_names
    rw [read_writes_unit_zero arg6.view f5 zero_S64x128, readAt_unit_zero arg1.view f0 zero_S5000x128,
      readAt_unit_zero arg2.view f1 zero_S5000x1, View.readCov_unit_zero arg6.view zero_S64x128]
  iexists _; isplitr
  swap; · iexact H6
  ipureintro
  sl_unfold_run_names
  rw [read_writes_unit_zero arg7.view f6 zero_S64x1, readAt_unit_zero arg2.view f1 zero_S5000x1,
    View.readCov_unit_zero arg7.view zero_S64x1]

set_option maxHeartbeats 1000000 in

/-- A middle point: the accumulators are updated from what the point before left. -/
theorem sound_kernel4_B (c : Dev nD) (E : Set ℕ) (i : grid4.Coords)
    (arg1 : Memref sig .tc .vmem S5000x128 .f32) (harg1 : arg1.IsWhole) (arg2 : Memref sig .tc .vmem S5000x1 .i32) (harg2 : arg2.IsWhole)
    (arg3 : Memref sig .tc .vmem S128x1 .f32) (harg3 : arg3.IsWhole) (arg4 : Memref sig .tc .vmem S1x1 .f32) (harg4 : arg4.IsWhole)
    (arg5 : Memref sig .tc .vmem S64x1 .f32) (harg5 : arg5.IsWhole) (arg6 : Memref sig .tc .vmem S64x128 .f32) (harg6 : arg6.IsWhole)
    (arg7 : Memref sig .tc .vmem S64x1 .f32) (harg7 : arg7.IsWhole) (hc0 : ¬cond4_0 i) (hc1 : ¬cond4_1 i)
    (x0 : Vec F S5000x128 .f32) (x1 : Vec F S5000x1 .i32) (x2 : Vec F S128x1 .f32) (x3 : Vec F S1x1 .f32) (xi4 : Vec F S64x1 .f32)
    (a : Vec F S64x128 .f32) (n : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
        ∗ owns (c : Thread nD τ) arg6 fullShare a ∗ owns (c : Thread nD τ) arg7 fullShare n
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare xi4
            ∗ owns (c : Thread nD τ) arg6 fullShare (k4_pay4 x0 x1 a) ∗ owns (c : Thread nD τ) arg7 fullShare (k4_pay5 x1 n)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0; subst hf1; subst hf2; subst hf3; subst hf4; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_writes_unit_zero arg6.view f5 zero_S64x128, readAt_unit_zero arg1.view f0 zero_S5000x128,
      readAt_unit_zero arg2.view f1 zero_S5000x1, readAt_unit_zero arg6.view f5 zero_S64x128]
  iexists _; isplitr
  swap; · iexact H6
  ipureintro
  rw [read_writes_unit_zero arg7.view f6 zero_S64x1, readAt_unit_zero arg2.view f1 zero_S5000x1,
    readAt_unit_zero arg7.view f6 zero_S64x1]

set_option maxHeartbeats 1000000 in

/-- The last point: the accumulators are updated and the output tile is stored. -/
theorem sound_kernel4_C (c : Dev nD) (E : Set ℕ) (i : grid4.Coords)
    (arg1 : Memref sig .tc .vmem S5000x128 .f32) (harg1 : arg1.IsWhole) (arg2 : Memref sig .tc .vmem S5000x1 .i32) (harg2 : arg2.IsWhole)
    (arg3 : Memref sig .tc .vmem S128x1 .f32) (harg3 : arg3.IsWhole) (arg4 : Memref sig .tc .vmem S1x1 .f32) (harg4 : arg4.IsWhole)
    (arg5 : Memref sig .tc .vmem S64x1 .f32) (harg5 : arg5.IsWhole) (arg6 : Memref sig .tc .vmem S64x128 .f32) (harg6 : arg6.IsWhole)
    (arg7 : Memref sig .tc .vmem S64x1 .f32) (harg7 : arg7.IsWhole) (hc0 : ¬cond4_0 i) (hc1 : cond4_1 i)
    (x0 : Vec F S5000x128 .f32) (x1 : Vec F S5000x1 .i32) (x2 : Vec F S128x1 .f32) (x3 : Vec F S1x1 .f32)
    (a : Vec F S64x128 .f32) (n : Vec F S64x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ owns (c : Thread nD τ) arg6 fullShare a ∗ owns (c : Thread nD τ) arg7 fullShare n
        ∗ (iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare (k4_pay6 (k4_pay4 x0 x1 a) (k4_pay5 x1 n) x2 x3)
            ∗ owns (c : Thread nD τ) arg6 fullShare (k4_pay4 x0 x1 a) ∗ owns (c : Thread nD τ) arg7 fullShare (k4_pay5 x1 n)) -∗ K ⟨⟩))
      ⊢ wp frame (wpE (defs₀ (F := F)) Variants.none c none) E (cc4__pool_kernel i arg1 harg1 arg2 harg2 arg3 harg3 arg4 harg4 arg5 harg5 arg6 harg6 arg7 harg7) K := by
  simp only [cc4__pool_kernel_eq_skeleton]; unfold cc4__pool_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0; subst hf1; subst hf2; subst hf3; subst hf5; subst hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [read_writes_unit_zero arg5.view f4 zero_S64x1, View.readCov_unit_zero arg6.view zero_S64x128,
      View.readCov_unit_zero arg7.view zero_S64x1, readAt_unit_zero arg1.view f0 zero_S5000x128,
      readAt_unit_zero arg2.view f1 zero_S5000x1, readAt_unit_zero arg6.view f5 zero_S64x128,
      readAt_unit_zero arg7.view f6 zero_S64x1, readAt_unit_zero arg3.view f2 zero_S128x1,
      readAt_unit_zero arg4.view f3 zero_S1x1]
  isplitl [H5]
  · iexists _; isplitr
    swap; · iexact H5
    ipureintro
    sl_unfold_run_names
    rw [read_writes_unit_zero arg6.view f5 zero_S64x128, readAt_unit_zero arg1.view f0 zero_S5000x128,
      readAt_unit_zero arg2.view f1 zero_S5000x1, readAt_unit_zero arg6.view f5 zero_S64x128]
  iexists _; isplitr
  swap; · iexact H6
  ipureintro
  sl_unfold_run_names
  rw [read_writes_unit_zero arg7.view f6 zero_S64x1, readAt_unit_zero arg2.view f1 zero_S5000x1,
    readAt_unit_zero arg7.view f6 zero_S64x1]

/-- The sum accumulator after the body at point `n`, by recursion on `n`; `cntAt4` is the count accumulator. -/
def accAt4 (c : Dev nD) : (n : ℕ) → n < cfg4.N → Vec F S64x128 .f32
  | 0, hn => k4_pay4 (iblk4 V c 0 ⟨0, hn⟩) (iblk4 V c 1 ⟨0, hn⟩) k4_pay1
  | n + 1, hn => k4_pay4 (iblk4 V c 0 ⟨n + 1, hn⟩) (iblk4 V c 1 ⟨n + 1, hn⟩) (accAt4 c n (Nat.lt_of_succ_lt hn))

def cntAt4 (c : Dev nD) : (n : ℕ) → n < cfg4.N → Vec F S64x1 .f32
  | 0, hn => k4_pay5 (iblk4 V c 1 ⟨0, hn⟩) k4_pay2
  | n + 1, hn => k4_pay5 (iblk4 V c 1 ⟨n + 1, hn⟩) (cntAt4 c n (Nat.lt_of_succ_lt hn))

theorem accAt4_zero (c : Dev nD) (hn : 0 < cfg4.N) :
    accAt4 V c 0 hn = k4_pay4 (iblk4 V c 0 ⟨0, hn⟩) (iblk4 V c 1 ⟨0, hn⟩) k4_pay1 := rfl
theorem accAt4_succ (c : Dev nD) (n : ℕ) (hn : n + 1 < cfg4.N) :
    accAt4 V c (n + 1) hn = k4_pay4 (iblk4 V c 0 ⟨n + 1, hn⟩) (iblk4 V c 1 ⟨n + 1, hn⟩) (accAt4 V c n (Nat.lt_of_succ_lt hn)) := rfl
theorem cntAt4_zero (c : Dev nD) (hn : 0 < cfg4.N) :
    cntAt4 V c 0 hn = k4_pay5 (iblk4 V c 1 ⟨0, hn⟩) k4_pay2 := rfl
theorem cntAt4_succ (c : Dev nD) (n : ℕ) (hn : n + 1 < cfg4.N) :
    cntAt4 V c (n + 1) hn = k4_pay5 (iblk4 V c 1 ⟨n + 1, hn⟩) (cntAt4 V c n (Nat.lt_of_succ_lt hn)) := rfl

theorem accAt4_first (c : Dev nD) (t : Fin cfg4.N) (hz : t.val = 0) :
    accAt4 V c t.val t.isLt = k4_pay4 (iblk4 V c 0 t) (iblk4 V c 1 t) k4_pay1 := by
  obtain ⟨n, hn⟩ := t
  cases n with
  | zero => rfl
  | succ n => exact absurd hz (Nat.succ_ne_zero n)
theorem cntAt4_first (c : Dev nD) (t : Fin cfg4.N) (hz : t.val = 0) :
    cntAt4 V c t.val t.isLt = k4_pay5 (iblk4 V c 1 t) k4_pay2 := by
  obtain ⟨n, hn⟩ := t
  cases n with
  | zero => rfl
  | succ n => exact absurd hz (Nat.succ_ne_zero n)

theorem accAt4_later (c : Dev nD) (t : Fin cfg4.N) (hz : t.val ≠ 0) :
    accAt4 V c t.val t.isLt
      = k4_pay4 (iblk4 V c 0 t) (iblk4 V c 1 t) (accAt4 V c (t.val - 1) (Nat.lt_of_le_of_lt (Nat.sub_le _ _) t.isLt)) := by
  obtain ⟨n, hn⟩ := t
  cases n with
  | zero => exact absurd rfl hz
  | succ n => rfl
theorem cntAt4_later (c : Dev nD) (t : Fin cfg4.N) (hz : t.val ≠ 0) :
    cntAt4 V c t.val t.isLt
      = k4_pay5 (iblk4 V c 1 t) (cntAt4 V c (t.val - 1) (Nat.lt_of_le_of_lt (Nat.sub_le _ _) t.isLt)) := by
  obtain ⟨n, hn⟩ := t
  cases n with
  | zero => exact absurd rfl hz
  | succ n => rfl

def out4_4 (c : Dev nD) (t : Fin cfg4.N) : Vec F S64x1 .f32 :=
  k4_pay6 (accAt4 V c t.val t.isLt) (cntAt4 V c t.val t.isLt) (iblk4 V c 2 t) (iblk4 V c 3 t)

abbrev scM4_0 : Memref sig .tc .vmem S64x128 .f32 := Memref.whole cc4_scratch0
abbrev scM4_1 : Memref sig .tc .vmem S64x1 .f32 := Memref.whole cc4_scratch1

abbrev rest4 (c : Dev nD) : sProp 𝕄 :=
  Pipeline.scopedRestBut (Ix := Unit) (Name := ℕ) (U := UR sig nD τ) (Lvl := ℕ) (Val := Elt F) spec4 c [cc4_scratch0, cc4_scratch1]

theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ rest4 (F := F) c) ∗ (∃ r, prngReg c r)) := by
  unfold Pipeline.ΦA; rw [scopedRest4_split]; simp only [scM4_0, scM4_1, rest4, owns_whole]; try rfl

/-- The region invariant: before every point but the first the two accumulators hold what the point before left. -/
def PhiS4 (c : Dev nD) : (n : ℕ) → n ≤ cfg4.N → sProp 𝕄
  | 0, _ => Pipeline.ΦA spec4 c
  | n + 1, hn => iprop(iprop(iprop(owns (c : Thread nD τ) scM4_0 fullShare (accAt4 V c n hn) ∗ owns (c : Thread nD τ) scM4_1 fullShare (cntAt4 V c n hn))
      ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare (accAt4 V c n hn) ∗ owns (c : Thread nD τ) scM4_1 fullShare (cntAt4 V c n hn))
      ∗ rest4 (F := F) c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare (accAt4 V c (n - 1) (by omega)) ∗ owns (c : Thread nD τ) scM4_1 fullShare (cntAt4 V c (n - 1) (by omega)))
      ∗ rest4 (F := F) c) ∗ (∃ r, prngReg c r)) := by
  cases n with
  | zero => exact absurd rfl hz
  | succ n => rfl

/-- The region's proof data: the inputs keep their blocks, the output tile is the head applied to the accumulators, and the invariant carries the accumulators from point to point. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 V c t
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 V c t := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)

theorem PhiS4_castSucc (c : Dev nD) (t : Fin cfg4.N) :
    (dat4 V c).Φ t.castSucc = PhiS4 V c t.val (Nat.le_of_lt t.isLt) := by
  dsimp only [dat4]; simp only [Fin.coe_castSucc]

theorem leaves4_0 (c : Dev nD) (t : Fin cfg4.N) :
    (dat4 V c).leavesExact 0 t = owns (c : Thread nD τ) (st4_0 t) fullShare (iblk4 V c 0 t) := by
  unfold Dat.leavesExact; rw [liveAt4_0 t, after4_0]
theorem leaves4_1 (c : Dev nD) (t : Fin cfg4.N) :
    (dat4 V c).leavesExact 1 t = owns (c : Thread nD τ) (st4_1 t) fullShare (iblk4 V c 1 t) := by
  unfold Dat.leavesExact; rw [liveAt4_1 t, after4_1]
theorem leaves4_2 (c : Dev nD) (t : Fin cfg4.N) :
    (dat4 V c).leavesExact 2 t = owns (c : Thread nD τ) (st4_2 t) fullShare (iblk4 V c 2 t) := by
  unfold Dat.leavesExact; rw [liveAt4_2 t, after4_2]
theorem leaves4_3 (c : Dev nD) (t : Fin cfg4.N) :
    (dat4 V c).leavesExact 3 t = owns (c : Thread nD τ) (st4_3 t) fullShare (iblk4 V c 3 t) := by
  unfold Dat.leavesExact; rw [liveAt4_3 t, after4_3]

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t)

set_option maxHeartbeats 4000000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).owesAt () t.succ = (dat4 V c).owesAt () t.castSucc from rfl]
  rw [show (dat4 V c).Φ t.succ = PhiS4 V c (t.val + 1) t.isLt from rfl, PhiS4_succ]
  rw [leaves4_0, leaves4_1, leaves4_2, leaves4_3]
  have hN : t.val < 10 := lt_of_lt_of_eq t.isLt (show cfg4.N = 10 from N_4)
  by_cases h0 : t.val % 10 = 0
  ·
    have hz : t.val = 0 := by omega
    have h1 : ¬t.val % 10 = 9 := by omega
    have hc0 : cond4_0 (grid4.coords t) := (hcond4_0 t).mpr h0
    have hc1 : ¬cond4_1 (grid4.coords t) := fun h => h1 ((hcond4_1 t).mp h)
    rw [Dat.leavesExact_idle (dat4 V c) 4 t (idleAt4_4 t hc1) (noFlush4_4 t hc1)]
    rw [accAt4_first V c t hz, cntAt4_first V c t hz]
    rw [PhiS4_castSucc V c t, PhiS4_zero V c _ _ hz, PhiA4_eq]
    iintro ⟨⟨⟨⟨HS0, HS1⟩, HR⟩, Hg⟩, Ho, ⟨%d0, H0⟩, ⟨%d1, H1⟩, ⟨%d2, H2⟩, ⟨%d3, H3⟩, ⟨%d4, H4⟩⟩
    iapply (sound_kernel4_A c Set.univ _ _ _ _ _ _ _ _ _ _ _ _ _ _ _ hc0 hc1 (iblk4 V c 0 t) (iblk4 V c 1 t) (iblk4 V c 2 t) (iblk4 V c 3 t) _ _)
    isplitl [H0]; · iexact H0
    isplitl [H1]; · iexact H1
    isplitl [H2]; · iexact H2
    isplitl [H3]; · iexact H3
    isplitl [H4]; · iexact H4
    isplitl [HS0]; · iexact HS0
    isplitl [HS1]; · iexact HS1
    iintro ⟨H0, H1, H2, H3, H4, HS0, HS1⟩
    isplitl [HS0 HS1 HR Hg]
    · isplitl [HS0 HS1 HR]
      · isplitl [HS0 HS1]
        · isplitl [HS0]; · iexact HS0
          iexact HS1
        iexact HR
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    have hc0 : ¬cond4_0 (grid4.coords t) := fun h => h0 ((hcond4_0 t).mp h)
    rw [accAt4_later V c t hz, cntAt4_later V c t hz]
    rw [PhiS4_castSucc V c t, PhiS4_pos V c _ _ hz]
    by_cases h1 : t.val % 10 = 9
    ·
      have hc1 : cond4_1 (grid4.coords t) := (hcond4_1 t).mpr h1
      rw [show (dat4 V c).leavesExact 4 t = owns (c : Thread nD τ) (st4_4 t) fullShare ((dat4 V c).after 4 t) from by
        unfold Dat.leavesExact; rw [liveAt4_4 t hc1], after4_4]
      unfold out4_4
      rw [accAt4_later V c t hz, cntAt4_later V c t hz]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel4_C c Set.univ _ _ _ _ _ _ _ _ _ _ _ _ _ _ _ hc0 hc1 (iblk4 V c 0 t) (iblk4 V c 1 t) (iblk4 V c 2 t) (iblk4 V c 3 t) _ _ _)
      isplitl [H0]; · iexact H0
      isplitl [H1]; · iexact H1
      isplitl [H2]; · iexact H2
      isplitl [H3]; · iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexact H4
    ·
      have hc1 : ¬cond4_1 (grid4.coords t) := fun h => h1 ((hcond4_1 t).mp h)
      rw [Dat.leavesExact_idle (dat4 V c) 4 t (idleAt4_4 t hc1) (noFlush4_4 t hc1)]
      iintro ⟨⟨⟨⟨HS0, HS1⟩, HR⟩, Hg⟩, Ho, ⟨%d0, H0⟩, ⟨%d1, H1⟩, ⟨%d2, H2⟩, ⟨%d3, H3⟩, ⟨%d4, H4⟩⟩
      iapply (sound_kernel4_B c Set.univ _ _ _ _ _ _ _ _ _ _ _ _ _ _ _ hc0 hc1 (iblk4 V c 0 t) (iblk4 V c 1 t) (iblk4 V c 2 t) (iblk4 V c 3 t) _ _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0 HS1]
          · isplitl [HS0]; · iexact HS0
            iexact HS1
          iexact HR
        iexact Hg
      isplitl [Ho]; · iexact Ho
      isplitl [H0]; · iexact H0
      isplitl [H1]; · iexact H1
      isplitl [H2]; · iexact H2
      isplitl [H3]; · iexact H3
      iexists _; iexact H4

/-- The body obligation at every grid point. -/
theorem body_obligation4 (c : Dev nD) : BodyObligation (dat4 (F := F) V c) (defs₀ (F := F)) Variants.none () Set.univ := fun t => by
  rw [bigSep_W4, bigSep_W4]
  exact sound_body4 V c t

theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, HR⟩, Hg⟩
  isplitl [HS0 HS1 HR]
  · isplitl [HS0 HS1]
    · isplitl [HS0]; · iexists _; iexact HS0
      iexists _; iexact HS1
    iexact HR
  iexact Hg

theorem hout4 (c : Dev nD) : (dat4 V c).Φ (Fin.last cfg4.N) ⊢ Pipeline.ΦA spec4 c :=
  Phi_out4 V c _ (by rw [Fin.val_last]; have : cfg4.N = 10 := N_4; omega)

end Cert.KernelIdeal.Hand

end
-- ==== Proof.KI.Run.lean ====
import proofs.«422729_j12214886989913_2_alg».proof.Proof.KI.Reg0
import proofs.«422729_j12214886989913_2_alg».proof.Proof.KI.Reg1
import proofs.«422729_j12214886989913_2_alg».proof.Proof.KI.Reg2
import proofs.«422729_j12214886989913_2_alg».proof.Proof.KI.Reg3
import proofs.«422729_j12214886989913_2_alg».proof.Proof.KI.Reg4
import proofs.«422729_j12214886989913_2_alg».proof.Proof.Gen.KernelIdeal.Regions
import proofs.«422729_j12214886989913_2_alg».proof.Proof.LibRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch; `W(2k+1)` after the host stretch before region k, `W(2k+2)` at region k's exit. -/
abbrev W0 (c : Dev nD) : Valuation τ sig (Elt F) := fun b => m (c, b)

abbrev W1 (c : Dev nD) : Valuation τ sig (Elt F) := StableHlo.after hostOps0 (W0 m c)
abbrev V1 : (c : Dev nD) → (b : Ref sig .tc) → Buf (Elt F) ((c : Thread nD τ).loc b) := fun c b => W1 m c b
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_keep (c : Dev nD) (b : Ref sig .tc) (hb : ∀ w : Fin cfg0.W, (cfg0.win w).isOut = true → Pipeline.arrRef spec0 w ≠ b) :
    W2 m c (Proc.devRef .tc b) = W1 m c (Proc.devRef .tc b) := by
  unfold W2; exact Pipeline.withArrays_keep (dat0 (V1 m) c) launch0.win.arr_inj _ (A_eq0 (V1 m) c) b hb

abbrev W3 (c : Dev nD) : Valuation τ sig (Elt F) := StableHlo.after hostOps1 (W2 m c)
abbrev V3 : (c : Dev nD) → (b : Ref sig .tc) → Buf (Elt F) ((c : Thread nD τ).loc b) := fun c b => W3 m c b
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_keep (c : Dev nD) (b : Ref sig .tc) (hb : ∀ w : Fin cfg1.W, (cfg1.win w).isOut = true → Pipeline.arrRef spec1 w ≠ b) :
    W4 m c (Proc.devRef .tc b) = W3 m c (Proc.devRef .tc b) := by
  unfold W4; exact Pipeline.withArrays_keep (dat1 (V3 m) c) launch1.win.arr_inj _ (A_eq1 (V3 m) c) b hb

abbrev W5 (c : Dev nD) : Valuation τ sig (Elt F) := StableHlo.after hostOps2 (W4 m c)
abbrev V5 : (c : Dev nD) → (b : Ref sig .tc) → Buf (Elt F) ((c : Thread nD τ).loc b) := fun c b => W5 m c b
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_keep (c : Dev nD) (b : Ref sig .tc) (hb : ∀ w : Fin cfg2.W, (cfg2.win w).isOut = true → Pipeline.arrRef spec2 w ≠ b) :
    W6 m c (Proc.devRef .tc b) = W5 m c (Proc.devRef .tc b) := by
  unfold W6; exact Pipeline.withArrays_keep (dat2 (V5 m) c) launch2.win.arr_inj _ (A_eq2 (V5 m) c) b hb

abbrev W7 (c : Dev nD) : Valuation τ sig (Elt F) := StableHlo.after hostOps3 (W6 m c)
abbrev V7 : (c : Dev nD) → (b : Ref sig .tc) → Buf (Elt F) ((c : Thread nD τ).loc b) := fun c b => W7 m c b
def W8 (c : Dev nD) : Valuation τ sig (Elt F) :=
  Pipeline.withArrays spec3 c (W7 m c) fun w => (dat3 (V7 m) c).arrAt w cfg3.N
theorem W8_arr (c : Dev nD) (w : Fin cfg3.W) :
    W8 m c (Proc.devRef .tc (Pipeline.arrRef spec3 w)) = (dat3 (V7 m) c).arrAt w cfg3.N := by
  unfold W8; exact Pipeline.withArrays_arr spec3 launch3.win.arr_inj c _ _ w
theorem W8_keep (c : Dev nD) (b : Ref sig .tc) (hb : ∀ w : Fin cfg3.W, (cfg3.win w).isOut = true → Pipeline.arrRef spec3 w ≠ b) :
    W8 m c (Proc.devRef .tc b) = W7 m c (Proc.devRef .tc b) := by
  unfold W8; exact Pipeline.withArrays_keep (dat3 (V7 m) c) launch3.win.arr_inj _ (A_eq3 (V7 m) c) b hb

abbrev W9 (c : Dev nD) : Valuation τ sig (Elt F) := StableHlo.after hostOps4 (W8 m c)
abbrev V9 : (c : Dev nD) → (b : Ref sig .tc) → Buf (Elt F) ((c : Thread nD τ).loc b) := fun c b => W9 m c b
def W10 (c : Dev nD) : Valuation τ sig (Elt F) :=
  Pipeline.withArrays spec4 c (W9 m c) fun w => (dat4 (V9 m) c).arrAt w cfg4.N
theorem W10_arr (c : Dev nD) (w : Fin cfg4.W) :
    W10 m c (Proc.devRef .tc (Pipeline.arrRef spec4 w)) = (dat4 (V9 m) c).arrAt w cfg4.N := by
  unfold W10; exact Pipeline.withArrays_arr spec4 launch4.win.arr_inj c _ _ w
theorem W10_keep (c : Dev nD) (b : Ref sig .tc) (hb : ∀ w : Fin cfg4.W, (cfg4.win w).isOut = true → Pipeline.arrRef spec4 w ≠ b) :
    W10 m c (Proc.devRef .tc b) = W9 m c (Proc.devRef .tc b) := by
  unfold W10; exact Pipeline.withArrays_keep (dat4 (V9 m) c) launch4.win.arr_inj _ (A_eq4 (V9 m) c) b hb

/-- `b` is no region's output array and no host stretch writes it. -/
abbrev Kept (b : Ref sig .tc) : Prop :=
  (∀ w : Fin cfg0.W, (cfg0.win w).isOut = true → Pipeline.arrRef spec0 w ≠ b) ∧ b ∉ hostOps0_W
  ∧ (∀ w : Fin cfg1.W, (cfg1.win w).isOut = true → Pipeline.arrRef spec1 w ≠ b) ∧ b ∉ hostOps1_W
  ∧ (∀ w : Fin cfg2.W, (cfg2.win w).isOut = true → Pipeline.arrRef spec2 w ≠ b) ∧ b ∉ hostOps2_W
  ∧ (∀ w : Fin cfg3.W, (cfg3.win w).isOut = true → Pipeline.arrRef spec3 w ≠ b) ∧ b ∉ hostOps3_W
  ∧ (∀ w : Fin cfg4.W, (cfg4.win w).isOut = true → Pipeline.arrRef spec4 w ≠ b) ∧ b ∉ hostOps4_W

section
variable (c : Dev nD) (b : Ref sig .tc) (h : Kept b)
include h

/-- A kept buffer holds its launch contents at every boundary. -/
theorem W1_kept : W1 m c (Proc.devRef .tc b) = m ((c : Thread nD τ).loc b) := (StableHlo.after_of_writes_sub hostOps0 _ hostOps0_writes h.2.1).trans rfl
theorem W2_kept : W2 m c (Proc.devRef .tc b) = m ((c : Thread nD τ).loc b) := (W2_keep m c b h.1).trans (W1_kept m c b h)
theorem W3_kept : W3 m c (Proc.devRef .tc b) = m ((c : Thread nD τ).loc b) := (StableHlo.after_of_writes_sub hostOps1 _ hostOps1_writes h.2.2.2.1).trans (W2_kept m c b h)
theorem W4_kept : W4 m c (Proc.devRef .tc b) = m ((c : Thread nD τ).loc b) := (W4_keep m c b h.2.2.1).trans (W3_kept m c b h)
theorem W5_kept : W5 m c (Proc.devRef .tc b) = m ((c : Thread nD τ).loc b) := (StableHlo.after_of_writes_sub hostOps2 _ hostOps2_writes h.2.2.2.2.2.1).trans (W4_kept m c b h)
theorem W6_kept : W6 m c (Proc.devRef .tc b) = m ((c : Thread nD τ).loc b) := (W6_keep m c b h.2.2.2.2.1).trans (W5_kept m c b h)
theorem W7_kept : W7 m c (Proc.devRef .tc b) = m ((c : Thread nD τ).loc b) := (StableHlo.after_of_writes_sub hostOps3 _ hostOps3_writes h.2.2.2.2.2.2.2.1).trans (W6_kept m c b h)
theorem W8_kept : W8 m c (Proc.devRef .tc b) = m ((c : Thread nD τ).loc b) := (W8_keep m c b h.2.2.2.2.2.2.1).trans (W7_kept m c b h)
theorem W9_kept : W9 m c (Proc.devRef .tc b) = m ((c : Thread nD τ).loc b) := (StableHlo.after_of_writes_sub hostOps4 _ hostOps4_writes h.2.2.2.2.2.2.2.2.2).trans (W8_kept m c b h)
theorem W10_kept : W10 m c (Proc.devRef .tc b) = m ((c : Thread nD τ).loc b) := (W10_keep m c b h.2.2.2.2.2.2.2.2.1).trans (W9_kept m c b h)

end

abbrev adm : (p : Fin 5) → (pcfgs (F := F) p).Adm := fun p => (cfgs p).toPCfg_adm
def pdats : (p : Fin 5) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
  | ⟨3, _⟩ => fun c => dat3 (V7 m) c
  | ⟨4, _⟩ => fun c => dat4 (V9 m) c
abbrev 𝒱₀ : Variants := Variants.none
abbrev L : GSem nD τ sig → Finset Unit := fun _ => ∅
abbrev lv : GSem nD τ sig → Unit → ℕ := fun _ _ => 0
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Pipeline.rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W10 m c) ∗ ∃ r, prngReg c r)

set_option backward.isDefEq.respectTransparency.types false in
def reg0 : Pipeline.RegionSeg (pcfgs (F := F)) adm (pdats m) () defs₀ 𝒱₀ L lv 0 :=
  .ofHeld _ _ _ _ _ L lv 0 launch0.win launch0.block_pos launch0.stage_whole launch0.arr_whole rfl
    (fun c => (body_obligation0 (V1 m) c).loose) (fun _ _ => rfl) (fun _ _ => rfl) (fun _ _ => rfl)
    (W1 m) (W2 m) (A_eq0 (V1 m)) (fun _ => rfl) (fun _ => .rfl) (fun _ => .rfl)

set_option backward.isDefEq.respectTransparency.types false in
def reg1 : Pipeline.RegionSeg (pcfgs (F := F)) adm (pdats m) () defs₀ 𝒱₀ L lv 1 :=
  .ofHeld _ _ _ _ _ L lv 1 launch1.win launch1.block_pos launch1.stage_whole launch1.arr_whole rfl
    (fun c => (body_obligation1 (V3 m) c).loose) (fun _ _ => rfl) (fun _ _ => rfl) (fun _ _ => rfl)
    (W3 m) (W4 m) (A_eq1 (V3 m)) (fun _ => rfl) (fun _ => .rfl) (fun _ => .rfl)

set_option backward.isDefEq.respectTransparency.types false in
def reg2 : Pipeline.RegionSeg (pcfgs (F := F)) adm (pdats m) () defs₀ 𝒱₀ L lv 2 :=
  .ofHeld _ _ _ _ _ L lv 2 launch2.win launch2.block_pos launch2.stage_whole launch2.arr_whole rfl
    (fun c => (body_obligation2 (V5 m) c).loose) (fun _ _ => rfl) (fun _ _ => rfl) (fun _ _ => rfl)
    (W5 m) (W6 m) (A_eq2 (V5 m)) (fun _ => rfl) (fun _ => .rfl) (fun _ => .rfl)

set_option backward.isDefEq.respectTransparency.types false in
def reg3 : Pipeline.RegionSeg (pcfgs (F := F)) adm (pdats m) () defs₀ 𝒱₀ L lv 3 :=
  .ofHeld _ _ _ _ _ L lv 3 launch3.win launch3.block_pos launch3.stage_whole launch3.arr_whole rfl
    (fun c => (body_obligation3 (V7 m) c).loose) (fun _ _ => rfl) (fun _ _ => rfl) (fun _ _ => rfl)
    (W7 m) (W8 m) (A_eq3 (V7 m)) (fun _ => rfl) (fun _ => .rfl) (fun _ => .rfl)

set_option backward.isDefEq.respectTransparency.types false in
def reg4 : Pipeline.RegionSeg (pcfgs (F := F)) adm (pdats m) () defs₀ 𝒱₀ L lv 4 :=
  .ofHeld _ _ _ _ _ L lv 4 launch4.win launch4.block_pos launch4.stage_whole launch4.arr_whole rfl
    (fun c => (body_obligation4 (V9 m) c).loose) (fun _ _ => rfl) (fun _ _ => rfl) (fun _ _ => rfl)
    (W9 m) (W10 m) (A_eq4 (V9 m)) (fun _ => rfl) (hin4 (V9 m)) (hout4 (V9 m))

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m) ]

set_option backward.isDefEq.respectTransparency.types false in
/-- Every weakly fair execution of @main ends with every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Pipeline.rest c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl,
      fun c => by
        show iprop(_ ∗ Pipeline.rest c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m c b)
    (hfin := fun c s' => by
      iintro ⟨⟨Hh, -⟩, HSI⟩
      unfold StableHlo.held
      imodintro
      iapply (pointsTo_read_all (Pipeline.ucRefs τ sig) (fun b => (((c : Thread nD τ)).1, b)) (W10 m c) s')
      isplitl [Hh] <;> iassumption)
    (hQ := fun s h c => h c)

/-- The result array ends at region 4's output array, and every argument array ends as launched. -/
theorem run : θ_run defs (onTc (τ := τ) (main (F := F))) ⟨m, fun _ => 0, ρ⟩ (fun r => ∀ c : Dev nD,
      r.2.mem ((c.tc : Thread nD τ).loc main_v128) = (dat4 (V9 m) c).arrAt 4 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c _ (mem_uc main_v128 (by decide))).trans (W10_arr m c 4),
     (h c _ (mem_uc main_arg0 (by decide))).trans (W10_kept m c main_arg0 (by decide)),
     (h c _ (mem_uc main_arg1 (by decide))).trans (W10_kept m c main_arg1 (by decide)),
     (h c _ (mem_uc main_arg2 (by decide))).trans (W10_kept m c main_arg2 (by decide)),
     (h c _ (mem_uc main_arg3 (by decide))).trans (W10_kept m c main_arg3 (by decide)),
     (h c _ (mem_uc main_arg4 (by decide))).trans (W10_kept m c main_arg4 (by decide)),
     (h c _ (mem_uc main_arg5 (by decide))).trans (W10_kept m c main_arg5 (by decide)),
     (h c _ (mem_uc main_arg6 (by decide))).trans (W10_kept m c main_arg6 (by decide)),
     (h c _ (mem_uc main_arg7 (by decide))).trans (W10_kept m c main_arg7 (by decide)),
     (h c _ (mem_uc main_arg8 (by decide))).trans (W10_kept m c main_arg8 (by decide)),
     (h c _ (mem_uc main_arg9 (by decide))).trans (W10_kept m c main_arg9 (by decide)),
     (h c _ (mem_uc main_arg10 (by decide))).trans (W10_kept m c main_arg10 (by decide)),
     (h c _ (mem_uc main_arg11 (by decide))).trans (W10_kept m c main_arg11 (by decide))⟩) (run_all m ρ)

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

abbrev A2 (n m : ℕ) : Type := (⟨2, ![n, m]⟩ : Shape).Idx → EReal
abbrev A1 (n : ℕ) : Type := (⟨1, ![n]⟩ : Shape).Idx → EReal
abbrev W1 (n : ℕ) : Type := (⟨1, ![n]⟩ : Shape).Idx → BitVec 32

def linAt (x : A2 50000 128) (w : A2 128 128) (p : Fin 50000) (q : Fin 128) : EReal :=
  ∑ k : Fin 128, x (ix2 p k) * w (ix2 k q)

/-- The dense transform: entry (p, q) is row p of `x` against column q of `w`. -/
def lin (x : A2 50000 128) (w : A2 128 128) : A2 50000 128 := fun i => linAt x w (i 0) (i 1)
theorem lin_ix2 (x : A2 50000 128) (w : A2 128 128) (p : Fin 50000) (q : Fin 128) :
    lin x w (ix2 p q) = linAt x w p q := rfl

def combAt (agg h : A2 50000 128) (dinv : A1 50000) (b : A1 128) (p : Fin 50000) (q : Fin 128) : EReal :=
  agg (ix2 p q) + h (ix2 p q) * (dinv (ix1 p) * dinv (ix1 p)) + b (ix1 q)
/-- One graph-convolution combine: the aggregated messages, plus the node's own features times its inverse degree, plus the bias. -/
def comb (agg h : A2 50000 128) (dinv : A1 50000) (b : A1 128) : A2 50000 128 := fun i => combAt agg h dinv b (i 0) (i 1)

def col {n : ℕ} (d : A1 n) : A2 n 1 := fun i => d (ix1 (i 0))
def row {n : ℕ} (b : A1 n) : A2 1 n := fun i => b (ix1 (i 1))
abbrev W2 (n m : ℕ) : Type := (⟨2, ![n, m]⟩ : Shape).Idx → BitVec 32
def colW {n : ℕ} (d : W1 n) : W2 n 1 := fun i => d (ix1 (i 0))

def comb2At (agg h : A2 50000 128) (dcol : A2 50000 1) (brow : A2 1 128) (p : Fin 50000) (q : Fin 128) : EReal :=
  agg (ix2 p q) + h (ix2 p q) * (dcol (ix2 p 0) * dcol (ix2 p 0)) + brow (ix2 0 q)
def comb2 (agg h : A2 50000 128) (dcol : A2 50000 1) (brow : A2 1 128) : A2 50000 128 := fun i => comb2At agg h dcol brow (i 0) (i 1)
theorem comb2_ix2 (agg h : A2 50000 128) (dcol : A2 50000 1) (brow : A2 1 128) (p : Fin 50000) (q : Fin 128) :
    comb2 agg h dcol brow (ix2 p q) = comb2At agg h dcol brow p q := rfl
/-- The combine over a column of inverse roots and a row of biases is the combine over the two rank-1 arrays. -/
theorem comb2_col_row (agg h : A2 50000 128) (dinv : A1 50000) (b : A1 128) :
    comb2 agg h (col dinv) (row b) = comb agg h dinv b := rfl

/-- The rectifier, entry by entry. -/
def relu (x : A2 50000 128) : A2 50000 128 := fun i => max (x i) 0

def sumBy (h : A2 50000 128) (batch : W1 50000) (g : Fin 64) (d : Fin 128) : EReal :=
  ∑ n : Fin 50000, if batch (ix1 n) = BitVec.ofNat 32 g.val then h (ix2 n d) else 0
def cntBy (batch : W1 50000) (g : Fin 64) : EReal :=
  ∑ n : Fin 50000, if batch (ix1 n) = BitVec.ofNat 32 g.val then (1 : EReal) else 0

def poolAt (h : A2 50000 128) (batch : W1 50000) (wl : A2 128 1) (bl : A1 1) (g : Fin 64) : EReal :=
  (∑ d : Fin 128, Ideal.div (sumBy h batch g d) (max (cntBy batch g) 1) * wl (ix2 d 0)) + bl (ix1 0)
/-- The mean of each graph's node rows (sum over the graph's nodes over their count, at least one) against the head's weights, plus its bias. -/
def pool (h : A2 50000 128) (batch : W1 50000) (wl : A2 128 1) (bl : A1 1) : A2 64 1 := fun i => poolAt h batch wl bl (i 0)
theorem pool_ix2 (h : A2 50000 128) (batch : W1 50000) (wl : A2 128 1) (bl : A1 1) (g : Fin 64) (z : Fin 1) :
    pool h batch wl bl (ix2 g z) = poolAt h batch wl bl g := rfl

def sumBy2 (h : A2 50000 128) (bcol : W2 50000 1) (g : Fin 64) (d : Fin 128) : EReal :=
  ∑ n : Fin 50000, if bcol (ix2 n 0) = BitVec.ofNat 32 g.val then h (ix2 n d) else 0
def cntBy2 (bcol : W2 50000 1) (g : Fin 64) : EReal :=
  ∑ n : Fin 50000, if bcol (ix2 n 0) = BitVec.ofNat 32 g.val then (1 : EReal) else 0
def pool2At (h : A2 50000 128) (bcol : W2 50000 1) (wl : A2 128 1) (bl : A2 1 1) (g : Fin 64) : EReal :=
  (∑ d : Fin 128, Ideal.div (sumBy2 h bcol g d) (max (cntBy2 bcol g) 1) * wl (ix2 d 0)) + bl (ix2 0 0)
def pool2 (h : A2 50000 128) (bcol : W2 50000 1) (wl : A2 128 1) (bl : A2 1 1) : A2 64 1 := fun i => pool2At h bcol wl bl (i 0)
theorem pool2_ix2 (h : A2 50000 128) (bcol : W2 50000 1) (wl : A2 128 1) (bl : A2 1 1) (g : Fin 64) (z : Fin 1) :
    pool2 h bcol wl bl (ix2 g z) = pool2At h bcol wl bl g := rfl
/-- The pool over a column of graph words and a one-by-one bias is the pool over the rank-1 arrays. -/
theorem pool2_col_row (h : A2 50000 128) (batch : W1 50000) (wl : A2 128 1) (bl : A1 1) :
    pool2 h (colW batch) wl (row bl) = pool h batch wl bl := rfl

end Cert.Spec

end
-- ==== Proof.LibDotAt.lean ====
import Idealize.ShloMosaic.PureOps.Ideal.Laws
import Idealize.ShloMosaic.Lib.ValueIdx

noncomputable section

namespace Idealize.ShloMosaic.DotAt

open Idealize.ShloMosaic Idealize.ShloMosaic.ValueIdx

variable {M K N : Nat} (d : DotDims ⟨2, ![M, K]⟩ ⟨2, ![K, N]⟩ ⟨2, ![M, N]⟩)

private theorem coord_congr (j : (⟨2, ![M, N]⟩ : Shape).Idx) (p q : Nat) (hp : p < 2) (hq : q < 2) (h : p = q) :
    (j ⟨p, hp⟩).val = (j ⟨q, hq⟩).val := by subst h; rfl

theorem plain_l0 (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

theorem plain_r1 (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- A matrix product contracting the left operand's columns with the right operand's rows, into zero, is the sum over k at every entry. -/
theorem matmul_plain {φ₁ φ₂ : FTy} (hr : d.contr.rank = 1) (hs : d.contr.size ⟨0, by omega⟩ = K)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact plain_l0 d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact plain_r1 d hlb hrb hln hrn _ _)
  rw [el, er]

end Idealize.ShloMosaic.DotAt

end
-- ==== Proof.Val.Reg0.lean ====
import proofs.«422729_j12214886989913_2_alg».proof.Proof.KI.Reg0
import proofs.«422729_j12214886989913_2_alg».proof.Proof.Spec
import proofs.«422729_j12214886989913_2_alg».proof.Proof.LibDotAt
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_off0 : (![0, 0] : Fin 2 → Nat) = fun _ => 0 := funext fun a => by fin_cases a <;> rfl

theorem pay0_at (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact DotAt.matmul_plain (M := 5000) (K := 128) (N := 128) dot_S5000x128_S128x128_S5000x128_1_0_0_1_n_n
    rfl rfl rfl rfl rfl rfl rfl rfl none (truncf .bf16 x0 bitsLt_bf16_f32) (truncf .bf16 x1 bitsLt_bf16_f32) p q

/-- What the body leaves in the output tile at (p, q): row p of the row tile against column q of the weights. -/
theorem out0_2_at (x0 : Vec Ideal S5000x128 .f32) (x1 : Vec Ideal S128x128 .f32) (p : Fin 5000) (q : Fin 128) :
    out0_2 x0 x1 (ix2 p q) = ∑ k : Fin 128, x0 (ix2 p k) * x1 (ix2 k q) := by
  unfold out0_2
  rw [View.canon_unit_zero zero_off0]
  simp only [View.ld_unit_zero (S := S5000x128) zero_off0, View.ld_unit_zero (S := S128x128) zero_off0]
  exact pay0_at x0 x1 p q

theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lin_tile0 (A : Cert.Spec.A2 50000 128) (W : Cert.Spec.A2 128 128) (x0 : Vec Ideal S5000x128 .f32)
    (x1 : Vec Ideal S128x128 .f32) (r : Fin 50000) (p : Fin 5000) (q : Fin 128)
    (h0 : ∀ k : Fin 128, x0 (ix2 p k) = A (ix2 r k)) (h1 : ∀ k : Fin 128, x1 (ix2 k q) = W (ix2 k q)) :
    out0_2 x0 x1 (ix2 p q) = Cert.Spec.lin A W (ix2 r q) := by
  rw [out0_2_at, Cert.Spec.lin_ix2]
  unfold Cert.Spec.linAt
  exact Finset.sum_congr rfl fun k _ => by rw [h0 k, h1 k]

theorem flushed0_2_eq (c : Dev nD) (t : Fin cfg0.N) :
    (dat0 (F := Ideal) V c).flushed 2 t
      = ((cfg0.win 2).blk t).view.read (Elt Ideal)
          (Cert.Spec.lin (V c (Pipeline.arrRef spec0 0)) (V c (Pipeline.arrRef spec0 1))) := by
  show (cfg0.win 2).cut (grid0.coords t) ((dat0 (F := Ideal) V c).after 2 t) = _
  rw [after0_2]
  obtain ⟨e00, e01, e10, e11, e20, e21⟩ := idx_facts0 t
  funext j
  obtain ⟨p, q, rfl⟩ : ∃ (p : Fin 5000) (q : Fin 128), j = ix2 p q := ⟨j 0, j 1, eq_ix2 j⟩
  have hp : p.val < 5000 := p.isLt
  have ht : t.val < 10 := Nat.lt_of_lt_of_eq t.isLt N_0
  have hrow : 5000 * t.val + p.val < 50000 := by omega
  have h2 : ((cfg0.win 2).blk t).view.emb (ix2 p q) = (ix2 ⟨5000 * t.val + p.val, hrow⟩ q : S50000x128.Idx) := by
    funext a; apply Fin.ext
    match a with
    | ⟨0, _⟩ => show win0_2.index t (0 : Fin 2) * 5000 + 1 * p.val = 5000 * t.val + p.val; omega
    | ⟨1, _⟩ => show win0_2.index t (1 : Fin 2) * 128 + 1 * q.val = q.val; omega
  show out0_2 (iblk0 V c 0 t) (iblk0 V c 1 t) (ix2 p q)
    = Cert.Spec.lin (V c (Pipeline.arrRef spec0 0)) (V c (Pipeline.arrRef spec0 1)) (((cfg0.win 2).blk t).view.emb (ix2 p q))
  rw [h2]
  refine lin_tile0 (V c (Pipeline.arrRef spec0 0)) (V c (Pipeline.arrRef spec0 1)) (iblk0 V c 0 t) (iblk0 V c 1 t)
    ⟨5000 * t.val + p.val, hrow⟩ p q (fun k => ?_) (fun k => ?_)
  · have h0 : ((cfg0.win 0).blk t).view.emb (ix2 p k) = (ix2 ⟨5000 * t.val + p.val, hrow⟩ k : S50000x128.Idx) := by
      funext a; apply Fin.ext
      match a with
      | ⟨0, _⟩ => show win0_0.index t (0 : Fin 2) * 5000 + 1 * p.val = 5000 * t.val + p.val; omega
      | ⟨1, _⟩ => show win0_0.index t (1 : Fin 2) * 128 + 1 * k.val = k.val; omega
    exact congrArg (V c (Pipeline.arrRef spec0 0)) h0
  · have h1 : ((cfg0.win 1).blk t).view.emb (ix2 k q) = (ix2 k q : S128x128.Idx) := by
      funext a; apply Fin.ext
      match a with
      | ⟨0, _⟩ => show win0_1.index t (0 : Fin 2) * 128 + 1 * k.val = k.val; omega
      | ⟨1, _⟩ => show win0_1.index t (1 : Fin 2) * 128 + 1 * q.val = q.val; omega
    exact congrArg (V c (Pipeline.arrRef spec0 1)) h1

theorem mem_blk0_2 (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v5).slice (win0_2.rect t)).set ↔ _
  rw [View.set_slice_whole, Rect.mem_set_unit]
  exact Iff.rfl

theorem covered0_2 (i : S50000x128.Idx) :
    ∃ t : Fin cfg0.N, (cfg0.win 2).flush t = true ∧ i ∈ ((cfg0.win 2).blk t).view.set := by
  have hi0 : (i 0).val < 50000 := idx2_lt0 i
  have hi1 : (i 1).val < 128 := idx2_lt1 i
  have hN : cfg0.N = 10 := N_0
  let t : Fin cfg0.N := ⟨(i 0).val / 5000, by rw [hN]; omega⟩
  have htv : t.val = (i 0).val / 5000 := rfl
  obtain ⟨-, -, -, -, e20, e21⟩ := idx_facts0 t
  refine ⟨t, flush0_2 t, ?_⟩
  rw [mem_blk0_2]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- Point t writes back row tile t of the whole-array product and the ten tiles cover the array: region 0's output is the dense transform. -/
theorem final0_2 (c : Dev nD) :
    ((dat0 (F := Ideal) V c).arrAt 2 cfg0.N : Cert.Spec.A2 50000 128)
      = Cert.Spec.lin (V c (Pipeline.arrRef spec0 0)) (V c (Pipeline.arrRef spec0 1)) :=
  (dat0 (F := Ideal) V c).arrAt_eq_of_cover 2
    (Cert.Spec.lin (V c (Pipeline.arrRef spec0 0)) (V c (Pipeline.arrRef spec0 1)))
    (fun t _ => flushed0_2_eq V c t) covered0_2

end Cert.KernelIdeal.Hand

end
-- ==== Proof.Val.Pay12.lean ====
import proofs.«422729_j12214886989913_2_alg».proof.Proof.Gen.KernelIdeal.Skeleton
import proofs.«422729_j12214886989913_2_alg».proof.Proof.LibDotAt
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand

open Cert.KernelIdeal Cert.KernelIdeal.Gen
open Idealize.ShloMosaic Idealize.ShloMosaic.ValueIdx

theorem col_bcast12_at {α : Type} (v : S5000x1.Idx → α) (p : Fin 5000) (q : Fin 128) :
    broadcastTo S5000x128 v broadcasts_S5000x1_S5000x128 (ix2 p q) = v (ix2 p (0 : Fin 1)) :=
  broadcastTo_apply v broadcasts_S5000x1_S5000x128 (ix2 p q) (ix2 p (0 : Fin 1)) (fun a => by
    match a with
    | ⟨0, _⟩ => rfl
    | ⟨1, _⟩ => rfl)

theorem row_bcast12_at {α : Type} (v : S1x128.Idx → α) (p : Fin 5000) (q : Fin 128) :
    broadcastTo S5000x128 v broadcasts_S1x128_S5000x128 (ix2 p q) = v (ix2 (0 : Fin 1) q) :=
  broadcastTo_1b_ab_apply v broadcasts_S1x128_S5000x128 p q

/-- The combine-and-rectify payload at (p, q). -/
theorem pay1_1_at (xd xd' : Vec Ideal S5000x1 .f32) (xb : Vec Ideal S1x128 .f32) (xa xh : Vec Ideal S5000x128 .f32)
    (p : Fin 5000) (q : Fin 128) :
    k1_pay1 (F := Ideal) xd xd' xb xa xh (ix2 p q)
      = max (xa (ix2 p q) + xh (ix2 p q) * (xd (ix2 p (0 : Fin 1)) * xd' (ix2 p (0 : Fin 1))) + xb (ix2 (0 : Fin 1) q)) 0 := by
  show maximumf (addf (addf (shapeCast S5000x128 xa shapeCasts_S5000x128_S5000x128)
      (mulf (shapeCast S5000x128 xh shapeCasts_S5000x128_S5000x128)
        (broadcastTo S5000x128 (shapeCast S5000x1 (mulf (shapeCast S5000x1 xd shapeCasts_S5000x1_S5000x1)
          (shapeCast S5000x1 xd' shapeCasts_S5000x1_S5000x1)) shapeCasts_S5000x1_S5000x1) broadcasts_S5000x1_S5000x128)))
      (broadcastTo S5000x128 (shapeCast S1x128 (shapeCast S1x128 xb shapeCasts_S1x128_S1x128) shapeCasts_S1x128_S1x128)
        broadcasts_S1x128_S5000x128))
    (broadcast S5000x128 (Scalar.ofBits (F := Ideal) .f32 0x00000000#32)) (ix2 p q) = _
  simp only [shapeCast_self]
  rw [maximumf_apply, addf_apply, addf_apply, mulf_apply, broadcast_apply, col_bcast12_at, row_bcast12_at, mulf_apply]
  congr 1
  exact Ideal.ofBits_zero_f32

/-- The second payload is the first against the next layer's weights. -/
theorem pay1_2_at (xd xd' : Vec Ideal S5000x1 .f32) (xb : Vec Ideal S1x128 .f32) (xa xh : Vec Ideal S5000x128 .f32)
    (xw : Vec Ideal S128x128 .f32) (p : Fin 5000) (q : Fin 128) :
    k1_pay2 (F := Ideal) xd xd' xb xa xh xw (ix2 p q)
      = ∑ k : Fin 128, k1_pay1 (F := Ideal) xd xd' xb xa xh (ix2 p k) * xw (ix2 k q) := by
  show matmul dot_S5000x128_S128x128_S5000x128_1_0_0_1_n_n none
      (truncf .bf16 (k1_pay1 (F := Ideal) xd xd' xb xa xh) bitsLt_bf16_f32 : FVec Ideal S5000x128 .bf16)
      (truncf .bf16 xw bitsLt_bf16_f32 : FVec Ideal S128x128 .bf16) (constant S5000x128 .f32 0x00000000#32) (ix2 p q) = _
  rw [DotAt.matmul_plain dot_S5000x128_S128x128_S5000x128_1_0_0_1_n_n rfl rfl rfl rfl rfl rfl rfl rfl]
  refine Finset.sum_congr rfl fun k _ => ?_
  rw [truncf_apply, truncf_apply]

end Cert.KernelIdeal.Hand

end
-- ==== Proof.Val.Reg1.lean ====
import proofs.«422729_j12214886989913_2_alg».proof.Proof.KI.Reg1
import proofs.«422729_j12214886989913_2_alg».proof.Proof.Val.Pay12
import proofs.«422729_j12214886989913_2_alg».proof.Proof.Spec
import proofs.«422729_j12214886989913_2_alg».proof.Proof.LibDotAt
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero_off1 : (![0, 0] : Fin 2 → Nat) = fun _ => 0 := funext fun a => by fin_cases a <;> rfl

/-- The second output tile at (p, q): the rectified combine of row p against column q of the next weights. -/
theorem out1_6_at (x0 x1 : Vec Ideal S5000x128 .f32) (x2 : Vec Ideal S5000x1 .f32) (x3 : Vec Ideal S1x128 .f32)
    (x4 : Vec Ideal S128x128 .f32) (p : Fin 5000) (q : Fin 128) :
    out1_6 x0 x1 x2 x3 x4 (ix2 p q)
      = ∑ k : Fin 128, max (x0 (ix2 p k) + x1 (ix2 p k) * (x2 (ix2 p (0 : Fin 1)) * x2 (ix2 p (0 : Fin 1)))
          + x3 (ix2 (0 : Fin 1) k)) 0 * x4 (ix2 k q) := by
  unfold out1_6
  rw [View.canon_unit_zero zero_off1]
  simp only [View.ld_unit_zero (S := S5000x128) zero_off1, View.ld_unit_zero (S := S5000x1) zero_off1,
    View.ld_unit_zero (S := S1x128) zero_off1, View.ld_unit_zero (S := S128x128) zero_off1]
  rw [pay1_2_at]
  exact Finset.sum_congr rfl fun k _ => by rw [pay1_1_at]

theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_6.index t (0 : Fin 2) = t.val ∧ win1_6.index t (1 : Fin 2) = 0 :=
  (by decide +kernel : ∀ t : Fin grid1.N, _)

/-- An entry of a tile's result is the entry of the whole-array layer, once the tile's rows are the arrays' rows. -/
theorem layer_tile1 (A H : Cert.Spec.A2 50000 128) (D : Cert.Spec.A2 50000 1) (B : Cert.Spec.A2 1 128)
    (W : Cert.Spec.A2 128 128) (x0 x1 : Vec Ideal S5000x128 .f32) (x2 : Vec Ideal S5000x1 .f32)
    (x3 : Vec Ideal S1x128 .f32) (x4 : Vec Ideal S128x128 .f32) (r : Fin 50000) (p : Fin 5000) (q : Fin 128)
    (h0 : ∀ k : Fin 128, x0 (ix2 p k) = A (ix2 r k)) (h1 : ∀ k : Fin 128, x1 (ix2 p k) = H (ix2 r k))
    (h2 : x2 (ix2 p (0 : Fin 1)) = D (ix2 r (0 : Fin 1)))
    (h3 : ∀ k : Fin 128, x3 (ix2 (0 : Fin 1) k) = B (ix2 (0 : Fin 1) k))
    (h4 : ∀ k : Fin 128, x4 (ix2 k q) = W (ix2 k q)) :
    out1_6 x0 x1 x2 x3 x4 (ix2 p q)
      = Cert.Spec.lin (Cert.Spec.relu (Cert.Spec.comb2 A H D B)) W (ix2 r q) := by
  rw [out1_6_at, Cert.Spec.lin_ix2]
  unfold Cert.Spec.linAt
  refine Finset.sum_congr rfl fun k _ => ?_
  rw [h0 k, h1 k, h2, h3 k, h4 k]
  rfl

theorem blk1_0_at (c : Dev nD) (t : Fin cfg1.N) (p : Fin 5000) (k : Fin 128) (hrow : 5000 * t.val + p.val < 50000) :
    (iblk1 V c 0 t : Vec Ideal S5000x128 .f32) (ix2 p k)
      = (V c (Pipeline.arrRef spec1 0) : Cert.Spec.A2 50000 128) (ix2 ⟨5000 * t.val + p.val, hrow⟩ k) := by
  obtain ⟨e00, e01, e10, e11, e20, e21, e30, e31, e40, e41, e60, e61⟩ := idx_facts1 t
  have h : ((cfg1.win 0).blk t).view.emb (ix2 p k) = (ix2 ⟨5000 * t.val + p.val, hrow⟩ k : S50000x128.Idx) := by
    funext a; apply Fin.ext
    match a with
    | ⟨0, _⟩ => show win1_0.index t (0 : Fin 2) * 5000 + 1 * p.val = 5000 * t.val + p.val; omega
    | ⟨1, _⟩ => show win1_0.index t (1 : Fin 2) * 128 + 1 * k.val = k.val; omega
  exact congrArg (V c (Pipeline.arrRef spec1 0)) h

theorem blk1_1_at (c : Dev nD) (t : Fin cfg1.N) (p : Fin 5000) (k : Fin 128) (hrow : 5000 * t.val + p.val < 50000) :
    (iblk1 V c 1 t : Vec Ideal S5000x128 .f32) (ix2 p k)
      = (V c (Pipeline.arrRef spec1 1) : Cert.Spec.A2 50000 128) (ix2 ⟨5000 * t.val + p.val, hrow⟩ k) := by
  obtain ⟨e00, e01, e10, e11, e20, e21, e30, e31, e40, e41, e60, e61⟩ := idx_facts1 t
  have h : ((cfg1.win 1).blk t).view.emb (ix2 p k) = (ix2 ⟨5000 * t.val + p.val, hrow⟩ k : S50000x128.Idx) := by
    funext a; apply Fin.ext
    match a with
    | ⟨0, _⟩ => show win1_1.index t (0 : Fin 2) * 5000 + 1 * p.val = 5000 * t.val + p.val; omega
    | ⟨1, _⟩ => show win1_1.index t (1 : Fin 2) * 128 + 1 * k.val = k.val; omega
  exact congrArg (V c (Pipeline.arrRef spec1 1)) h

theorem blk1_2_at (c : Dev nD) (t : Fin cfg1.N) (p : Fin 5000) (hrow : 5000 * t.val + p.val < 50000) :
    (iblk1 V c 2 t : Vec Ideal S5000x1 .f32) (ix2 p (0 : Fin 1))
      = (V c (Pipeline.arrRef spec1 2) : Cert.Spec.A2 50000 1) (ix2 ⟨5000 * t.val + p.val, hrow⟩ (0 : Fin 1)) := by
  obtain ⟨e00, e01, e10, e11, e20, e21, e30, e31, e40, e41, e60, e61⟩ := idx_facts1 t
  have h : ((cfg1.win 2).blk t).view.emb (ix2 p (0 : Fin 1))
      = (ix2 ⟨5000 * t.val + p.val, hrow⟩ (0 : Fin 1) : S50000x1.Idx) := by
    funext a; apply Fin.ext
    match a with
    | ⟨0, _⟩ => show win1_2.index t (0 : Fin 2) * 5000 + 1 * p.val = 5000 * t.val + p.val; omega
    | ⟨1, _⟩ => show win1_2.index t (1 : Fin 2) * 1 + 1 * 0 = 0; omega
  exact congrArg (V c (Pipeline.arrRef spec1 2)) h

theorem blk1_3_at (c : Dev nD) (t : Fin cfg1.N) (k : Fin 128) :
    (iblk1 V c 3 t : Vec Ideal S1x128 .f32) (ix2 (0 : Fin 1) k)
      = (V c (Pipeline.arrRef spec1 3) : Cert.Spec.A2 1 128) (ix2 (0 : Fin 1) k) := by
  obtain ⟨e00, e01, e10, e11, e20, e21, e30, e31, e40, e41, e60, e61⟩ := idx_facts1 t
  have h : ((cfg1.win 3).blk t).view.emb (ix2 (0 : Fin 1) k) = (ix2 (0 : Fin 1) k : S1x128.Idx) := by
    funext a; apply Fin.ext
    match a with
    | ⟨0, _⟩ => show win1_3.index t (0 : Fin 2) * 1 + 1 * 0 = 0; omega
    | ⟨1, _⟩ => show win1_3.index t (1 : Fin 2) * 128 + 1 * k.val = k.val; omega
  exact congrArg (V c (Pipeline.arrRef spec1 3)) h

theorem blk1_4_at (c : Dev nD) (t : Fin cfg1.N) (k q : Fin 128) :
    (iblk1 V c 4 t : Vec Ideal S128x128 .f32) (ix2 k q)
      = (V c (Pipeline.arrRef spec1 4) : Cert.Spec.A2 128 128) (ix2 k q) := by
  obtain ⟨e00, e01, e10, e11, e20, e21, e30, e31, e40, e41, e60, e61⟩ := idx_facts1 t
  have h : ((cfg1.win 4).blk t).view.emb (ix2 k q) = (ix2 k q : S128x128.Idx) := by
    funext a; apply Fin.ext
    match a with
    | ⟨0, _⟩ => show win1_4.index t (0 : Fin 2) * 128 + 1 * k.val = k.val; omega
    | ⟨1, _⟩ => show win1_4.index t (1 : Fin 2) * 128 + 1 * q.val = q.val; omega
  exact congrArg (V c (Pipeline.arrRef spec1 4)) h

theorem flushed1_6_eq (c : Dev nD) (t : Fin cfg1.N) :
    (dat1 (F := Ideal) V c).flushed 6 t
      = ((cfg1.win 6).blk t).view.read (Elt Ideal)
          (Cert.Spec.lin (Cert.Spec.relu (Cert.Spec.comb2 (V c (Pipeline.arrRef spec1 0)) (V c (Pipeline.arrRef spec1 1))
            (V c (Pipeline.arrRef spec1 2)) (V c (Pipeline.arrRef spec1 3)))) (V c (Pipeline.arrRef spec1 4))) := by
  show (cfg1.win 6).cut (grid1.coords t) ((dat1 (F := Ideal) V c).after 6 t) = _
  rw [after1_6]
  obtain ⟨-, -, -, -, -, -, -, -, -, -, e60, e61⟩ := idx_facts1 t
  funext j
  obtain ⟨p, q, rfl⟩ : ∃ (p : Fin 5000) (q : Fin 128), j = ix2 p q := ⟨j 0, j 1, eq_ix2 j⟩
  have hp : p.val < 5000 := p.isLt
  have ht : t.val < 10 := Nat.lt_of_lt_of_eq t.isLt N_1
  have hrow : 5000 * t.val + p.val < 50000 := by omega
  have h6 : ((cfg1.win 6).blk t).view.emb (ix2 p q) = (ix2 ⟨5000 * t.val + p.val, hrow⟩ q : S50000x128.Idx) := by
    funext a; apply Fin.ext
    match a with
    | ⟨0, _⟩ => show win1_6.index t (0 : Fin 2) * 5000 + 1 * p.val = 5000 * t.val + p.val; omega
    | ⟨1, _⟩ => show win1_6.index t (1 : Fin 2) * 128 + 1 * q.val = q.val; omega
  show out1_6 (iblk1 V c 0 t) (iblk1 V c 1 t) (iblk1 V c 2 t) (iblk1 V c 3 t) (iblk1 V c 4 t) (ix2 p q)
    = Cert.Spec.lin (Cert.Spec.relu (Cert.Spec.comb2 (V c (Pipeline.arrRef spec1 0)) (V c (Pipeline.arrRef spec1 1))
        (V c (Pipeline.arrRef spec1 2)) (V c (Pipeline.arrRef spec1 3)))) (V c (Pipeline.arrRef spec1 4))
        (((cfg1.win 6).blk t).view.emb (ix2 p q))
  rw [h6]
  exact layer_tile1 (V c (Pipeline.arrRef spec1 0)) (V c (Pipeline.arrRef spec1 1)) (V c (Pipeline.arrRef spec1 2))
    (V c (Pipeline.arrRef spec1 3)) (V c (Pipeline.arrRef spec1 4)) (iblk1 V c 0 t) (iblk1 V c 1 t) (iblk1 V c 2 t)
    (iblk1 V c 3 t) (iblk1 V c 4 t) ⟨5000 * t.val + p.val, hrow⟩ p q (fun k => blk1_0_at V c t p k hrow)
    (fun k => blk1_1_at V c t p k hrow) (blk1_2_at V c t p hrow) (fun k => blk1_3_at V c t k)
    (fun k => blk1_4_at V c t k q)

theorem mem_blk1_6 (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v43_1).slice (win1_6.rect t)).set ↔ _
  rw [View.set_slice_whole, Rect.mem_set_unit]
  exact Iff.rfl

theorem covered1_6 (i : S50000x128.Idx) :
    ∃ t : Fin cfg1.N, (cfg1.win 6).flush t = true ∧ i ∈ ((cfg1.win 6).blk t).view.set := by
  have hi0 : (i 0).val < 50000 := idx2_lt0 i
  have hi1 : (i 1).val < 128 := idx2_lt1 i
  have hN : cfg1.N = 10 := N_1
  let t : Fin cfg1.N := ⟨(i 0).val / 5000, by rw [hN]; omega⟩
  have htv : t.val = (i 0).val / 5000 := rfl
  obtain ⟨-, -, -, -, -, -, -, -, -, -, e60, e61⟩ := idx_facts1 t
  refine ⟨t, flush1_6 t, ?_⟩
  rw [mem_blk1_6]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 128 ≤ (i 1).val ∧ (i 1).val < win1_6.index t (1 : Fin 2) * 128 + 128
    omega

/-- Region 1's second output is the layer of its five input arrays. -/
theorem final1_6 (c : Dev nD) :
    ((dat1 (F := Ideal) V c).arrAt 6 cfg1.N : Cert.Spec.A2 50000 128)
      = Cert.Spec.lin (Cert.Spec.relu (Cert.Spec.comb2 (V c (Pipeline.arrRef spec1 0)) (V c (Pipeline.arrRef spec1 1))
          (V c (Pipeline.arrRef spec1 2)) (V c (Pipeline.arrRef spec1 3)))) (V c (Pipeline.arrRef spec1 4)) :=
  (dat1 (F := Ideal) V c).arrAt_eq_of_cover 6
    (Cert.Spec.lin (Cert.Spec.relu (Cert.Spec.comb2 (V c (Pipeline.arrRef spec1 0)) (V c (Pipeline.arrRef spec1 1))
      (V c (Pipeline.arrRef spec1 2)) (V c (Pipeline.arrRef spec1 3)))) (V c (Pipeline.arrRef spec1 4)))
    (fun t _ => flushed1_6_eq V c t) covered1_6

end Cert.KernelIdeal.Hand

end
-- ==== Proof.Val.Reg2.lean ====
import proofs.«422729_j12214886989913_2_alg».proof.Proof.KI.Reg2
import proofs.«422729_j12214886989913_2_alg».proof.Proof.Val.Reg1

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_6.index t (0 : Fin 2) = t.val ∧ win2_6.index t (1 : Fin 2) = 0 :=
  (by decide +kernel : ∀ t : Fin grid2.N, _)

theorem blk2_0_at (c : Dev nD) (t : Fin cfg2.N) (p : Fin 5000) (k : Fin 128) (hrow : 5000 * t.val + p.val < 50000) :
    (iblk2 V c 0 t : Vec Ideal S5000x128 .f32) (ix2 p k)
      = (V c (Pipeline.arrRef spec2 0) : Cert.Spec.A2 50000 128) (ix2 ⟨5000 * t.val + p.val, hrow⟩ k) := by
  obtain ⟨e00, e01, e10, e11, e20, e21, e30, e31, e40, e41, e60, e61⟩ := idx_facts2 t
  have h : ((cfg2.win 0).blk t).view.emb (ix2 p k) = (ix2 ⟨5000 * t.val + p.val, hrow⟩ k : S50000x128.Idx) := by
    funext a; apply Fin.ext
    match a with
    | ⟨0, _⟩ => show win2_0.index t (0 : Fin 2) * 5000 + 1 * p.val = 5000 * t.val + p.val; omega
    | ⟨1, _⟩ => show win2_0.index t (1 : Fin 2) * 128 + 1 * k.val = k.val; omega
  exact congrArg (V c (Pipeline.arrRef spec2 0)) h

theorem blk2_1_at (c : Dev nD) (t : Fin cfg2.N) (p : Fin 5000) (k : Fin 128) (hrow : 5000 * t.val + p.val < 50000) :
    (iblk2 V c 1 t : Vec Ideal S5000x128 .f32) (ix2 p k)
      = (V c (Pipeline.arrRef spec2 1) : Cert.Spec.A2 50000 128) (ix2 ⟨5000 * t.val + p.val, hrow⟩ k) := by
  obtain ⟨e00, e01, e10, e11, e20, e21, e30, e31, e40, e41, e60, e61⟩ := idx_facts2 t
  have h : ((cfg2.win 1).blk t).view.emb (ix2 p k) = (ix2 ⟨5000 * t.val + p.val, hrow⟩ k : S50000x128.Idx) := by
    funext a; apply Fin.ext
    match a with
    | ⟨0, _⟩ => show win2_1.index t (0 : Fin 2) * 5000 + 1 * p.val = 5000 * t.val + p.val; omega
    | ⟨1, _⟩ => show win2_1.index t (1 : Fin 2) * 128 + 1 * k.val = k.val; omega
  exact congrArg (V c (Pipeline.arrRef spec2 1)) h

theorem blk2_2_at (c : Dev nD) (t : Fin cfg2.N) (p : Fin 5000) (hrow : 5000 * t.val + p.val < 50000) :
    (iblk2 V c 2 t : Vec Ideal S5000x1 .f32) (ix2 p (0 : Fin 1))
      = (V c (Pipeline.arrRef spec2 2) : Cert.Spec.A2 50000 1) (ix2 ⟨5000 * t.val + p.val, hrow⟩ (0 : Fin 1)) := by
  obtain ⟨e00, e01, e10, e11, e20, e21, e30, e31, e40, e41, e60, e61⟩ := idx_facts2 t
  have h : ((cfg2.win 2).blk t).view.emb (ix2 p (0 : Fin 1))
      = (ix2 ⟨5000 * t.val + p.val, hrow⟩ (0 : Fin 1) : S50000x1.Idx) := by
    funext a; apply Fin.ext
    match a with
    | ⟨0, _⟩ => show win2_2.index t (0 : Fin 2) * 5000 + 1 * p.val = 5000 * t.val + p.val; omega
    | ⟨1, _⟩ => show win2_2.index t (1 : Fin 2) * 1 + 1 * 0 = 0; omega
  exact congrArg (V c (Pipeline.arrRef spec2 2)) h

theorem blk2_3_at (c : Dev nD) (t : Fin cfg2.N) (k : Fin 128) :
    (iblk2 V c 3 t : Vec Ideal S1x128 .f32) (ix2 (0 : Fin 1) k)
      = (V c (Pipeline.arrRef spec2 3) : Cert.Spec.A2 1 128) (ix2 (0 : Fin 1) k) := by
  obtain ⟨e00, e01, e10, e11, e20, e21, e30, e31, e40, e41, e60, e61⟩ := idx_facts2 t
  have h : ((cfg2.win 3).blk t).view.emb (ix2 (0 : Fin 1) k) = (ix2 (0 : Fin 1) k : S1x128.Idx) := by
    funext a; apply Fin.ext
    match a with
    | ⟨0, _⟩ => show win2_3.index t (0 : Fin 2) * 1 + 1 * 0 = 0; omega
    | ⟨1, _⟩ => show win2_3.index t (1 : Fin 2) * 128 + 1 * k.val = k.val; omega
  exact congrArg (V c (Pipeline.arrRef spec2 3)) h

theorem blk2_4_at (c : Dev nD) (t : Fin cfg2.N) (k q : Fin 128) :
    (iblk2 V c 4 t : Vec Ideal S128x128 .f32) (ix2 k q)
      = (V c (Pipeline.arrRef spec2 4) : Cert.Spec.A2 128 128) (ix2 k q) := by
  obtain ⟨e00, e01, e10, e11, e20, e21, e30, e31, e40, e41, e60, e61⟩ := idx_facts2 t
  have h : ((cfg2.win 4).blk t).view.emb (ix2 k q) = (ix2 k q : S128x128.Idx) := by
    funext a; apply Fin.ext
    match a with
    | ⟨0, _⟩ => show win2_4.index t (0 : Fin 2) * 128 + 1 * k.val = k.val; omega
    | ⟨1, _⟩ => show win2_4.index t (1 : Fin 2) * 128 + 1 * q.val = q.val; omega
  exact congrArg (V c (Pipeline.arrRef spec2 4)) h

theorem flushed2_6_eq (c : Dev nD) (t : Fin cfg2.N) :
    (dat2 (F := Ideal) V c).flushed 6 t
      = ((cfg2.win 6).blk t).view.read (Elt Ideal)
          (Cert.Spec.lin (Cert.Spec.relu (Cert.Spec.comb2 (V c (Pipeline.arrRef spec2 0)) (V c (Pipeline.arrRef spec2 1))
            (V c (Pipeline.arrRef spec2 2)) (V c (Pipeline.arrRef spec2 3)))) (V c (Pipeline.arrRef spec2 4))) := by
  show (cfg2.win 6).cut (grid2.coords t) ((dat2 (F := Ideal) V c).after 6 t) = _
  rw [after2_6]
  obtain ⟨-, -, -, -, -, -, -, -, -, -, e60, e61⟩ := idx_facts2 t
  funext j
  obtain ⟨p, q, rfl⟩ : ∃ (p : Fin 5000) (q : Fin 128), j = ix2 p q := ⟨j 0, j 1, eq_ix2 j⟩
  have hp : p.val < 5000 := p.isLt
  have ht : t.val < 10 := Nat.lt_of_lt_of_eq t.isLt N_2
  have hrow : 5000 * t.val + p.val < 50000 := by omega
  have h6 : ((cfg2.win 6).blk t).view.emb (ix2 p q) = (ix2 ⟨5000 * t.val + p.val, hrow⟩ q : S50000x128.Idx) := by
    funext a; apply Fin.ext
    match a with
    | ⟨0, _⟩ => show win2_6.index t (0 : Fin 2) * 5000 + 1 * p.val = 5000 * t.val + p.val; omega
    | ⟨1, _⟩ => show win2_6.index t (1 : Fin 2) * 128 + 1 * q.val = q.val; omega
  show out1_6 (iblk2 V c 0 t) (iblk2 V c 1 t) (iblk2 V c 2 t) (iblk2 V c 3 t) (iblk2 V c 4 t) (ix2 p q)
    = Cert.Spec.lin (Cert.Spec.relu (Cert.Spec.comb2 (V c (Pipeline.arrRef spec2 0)) (V c (Pipeline.arrRef spec2 1))
        (V c (Pipeline.arrRef spec2 2)) (V c (Pipeline.arrRef spec2 3)))) (V c (Pipeline.arrRef spec2 4))
        (((cfg2.win 6).blk t).view.emb (ix2 p q))
  rw [h6]
  exact layer_tile1 (V c (Pipeline.arrRef spec2 0)) (V c (Pipeline.arrRef spec2 1)) (V c (Pipeline.arrRef spec2 2))
    (V c (Pipeline.arrRef spec2 3)) (V c (Pipeline.arrRef spec2 4)) (iblk2 V c 0 t) (iblk2 V c 1 t) (iblk2 V c 2 t)
    (iblk2 V c 3 t) (iblk2 V c 4 t) ⟨5000 * t.val + p.val, hrow⟩ p q (fun k => blk2_0_at V c t p k hrow)
    (fun k => blk2_1_at V c t p k hrow) (blk2_2_at V c t p hrow) (fun k => blk2_3_at V c t k)
    (fun k => blk2_4_at V c t k q)

theorem mem_blk2_6 (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v84_1).slice (win2_6.rect t)).set ↔ _
  rw [View.set_slice_whole, Rect.mem_set_unit]
  exact Iff.rfl

theorem covered2_6 (i : S50000x128.Idx) :
    ∃ t : Fin cfg2.N, (cfg2.win 6).flush t = true ∧ i ∈ ((cfg2.win 6).blk t).view.set := by
  have hi0 : (i 0).val < 50000 := idx2_lt0 i
  have hi1 : (i 1).val < 128 := idx2_lt1 i
  have hN : cfg2.N = 10 := N_2
  let t : Fin cfg2.N := ⟨(i 0).val / 5000, by rw [hN]; omega⟩
  have htv : t.val = (i 0).val / 5000 := rfl
  obtain ⟨-, -, -, -, -, -, -, -, -, -, e60, e61⟩ := idx_facts2 t
  refine ⟨t, flush2_6 t, ?_⟩
  rw [mem_blk2_6]
  intro a
  match a with
  | ⟨0, _⟩ =>
    show win2_6.index t (0 : Fin 2) * 5000 ≤ (i 0).val ∧ (i 0).val < win2_6.index t (0 : Fin 2) * 5000 + 5000
    omega
  | ⟨1, _⟩ =>
    show win2_6.index t (1 : Fin 2) * 128 ≤ (i 1).val ∧ (i 1).val < win2_6.index t (1 : Fin 2) * 128 + 128
    omega

/-- Region 2 runs the same body on its own arrays. -/
theorem final2_6 (c : Dev nD) :
    ((dat2 (F := Ideal) V c).arrAt 6 cfg2.N : Cert.Spec.A2 50000 128)
      = Cert.Spec.lin (Cert.Spec.relu (Cert.Spec.comb2 (V c (Pipeline.arrRef spec2 0)) (V c (Pipeline.arrRef spec2 1))
          (V c (Pipeline.arrRef spec2 2)) (V c (Pipeline.arrRef spec2 3)))) (V c (Pipeline.arrRef spec2 4)) :=
  (dat2 (F := Ideal) V c).arrAt_eq_of_cover 6
    (Cert.Spec.lin (Cert.Spec.relu (Cert.Spec.comb2 (V c (Pipeline.arrRef spec2 0)) (V c (Pipeline.arrRef spec2 1))
      (V c (Pipeline.arrRef spec2 2)) (V c (Pipeline.arrRef spec2 3)))) (V c (Pipeline.arrRef spec2 4)))
    (fun t _ => flushed2_6_eq V c t) covered2_6

end Cert.KernelIdeal.Hand

end
-- ==== Proof.Val.Reg3.lean ====
import proofs.«422729_j12214886989913_2_alg».proof.Proof.KI.Reg3
import proofs.«422729_j12214886989913_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

theorem zero_off3 : (![0, 0] : Fin 2 → Nat) = fun _ => 0 := funext fun a => by fin_cases a <;> rfl

theorem bcastCol3_apply {α : Type} (v : S5000x1.Idx → α) (h : S5000x1.Broadcasts S5000x128) (p : Fin 5000) (q : Fin 128) :
    broadcastTo S5000x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- The last layer's payload at (p, q): the combine without a rectifier. -/
theorem pay3_apply (x0 x1 : Vec Ideal S5000x128 .f32) (x2 : Vec Ideal S5000x1 .f32) (x3 : Vec Ideal S1x128 .f32) (p : Fin 5000) (q : Fin 128) :
    k3_pay1 (F := Ideal) x2 x2 x3 x0 x1 (ix2 p q)
      = x0 (ix2 p q) + x1 (ix2 p q) * (x2 (ix2 p (0 : Fin 1)) * x2 (ix2 p (0 : Fin 1))) + x3 (ix2 (0 : Fin 1) q) := by
  unfold k3_pay1
  simp only [shapeCast_self, addf_apply, mulf_apply]
  rw [bcastCol3_apply, broadcastTo_1b_ab_apply, mulf_apply]

abbrev agg3 (c : Dev nD) : Cert.Spec.A2 50000 128 := V c (Pipeline.arrRef spec3 0)
abbrev own3 (c : Dev nD) : Cert.Spec.A2 50000 128 := V c (Pipeline.arrRef spec3 1)
abbrev dcol3 (c : Dev nD) : Cert.Spec.A2 50000 1 := V c (Pipeline.arrRef spec3 2)
abbrev brow3 (c : Dev nD) : Cert.Spec.A2 1 128 := V c (Pipeline.arrRef spec3 3)

theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0
    ∧ t.val < 10 :=
  (by decide +kernel : ∀ t : Fin grid3.N, _)

theorem idx_onto3 : ∀ q0 : Fin 10, ∃ t : Fin cfg3.N, win3_4.index t = ![q0.val, 0] :=
  (by decide +kernel : ∀ q0 : Fin 10, ∃ t : Fin grid3.N, win3_4.index t = ![q0.val, 0])

theorem iblk3_0_apply (c : Dev nD) (t : Fin cfg3.N) (p : Fin 5000) (q : Fin 128) (r : Fin 50000) (hr : r.val = 5000 * t.val + p.val) :
    (iblk3 V c 0 t : Vec Ideal S5000x128 .f32) (ix2 p q) = agg3 V c (ix2 r q) := by
  obtain ⟨e0, e1, -⟩ := idx_facts3 t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 5000 + 1 * p.val = r.val; rw [e0, hr]; omega
  | ⟨1, _⟩ => show win3_0.index t (1 : Fin 2) * 128 + 1 * q.val = q.val; rw [e1]; omega

theorem iblk3_1_apply (c : Dev nD) (t : Fin cfg3.N) (p : Fin 5000) (q : Fin 128) (r : Fin 50000) (hr : r.val = 5000 * t.val + p.val) :
    (iblk3 V c 1 t : Vec Ideal S5000x128 .f32) (ix2 p q) = own3 V c (ix2 r q) := by
  obtain ⟨-, -, e0, e1, -⟩ := idx_facts3 t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 5000 + 1 * p.val = r.val; rw [e0, hr]; omega
  | ⟨1, _⟩ => show win3_1.index t (1 : Fin 2) * 128 + 1 * q.val = q.val; rw [e1]; omega

theorem iblk3_2_apply (c : Dev nD) (t : Fin cfg3.N) (p : Fin 5000) (r : Fin 50000) (hr : r.val = 5000 * t.val + p.val) :
    (iblk3 V c 2 t : Vec Ideal S5000x1 .f32) (ix2 p (0 : Fin 1)) = dcol3 V c (ix2 r (0 : Fin 1)) := by
  obtain ⟨-, -, -, -, e0, e1, -⟩ := idx_facts3 t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 5000 + 1 * p.val = r.val; rw [e0, hr]; omega
  | ⟨1, _⟩ => show win3_2.index t (1 : Fin 2) * 1 + 1 * 0 = 0; rw [e1]

theorem iblk3_3_apply (c : Dev nD) (t : Fin cfg3.N) (q : Fin 128) :
    (iblk3 V c 3 t : Vec Ideal S1x128 .f32) (ix2 (0 : Fin 1) q) = brow3 V c (ix2 (0 : Fin 1) q) := by
  obtain ⟨-, -, -, -, -, -, e0, e1, -⟩ := idx_facts3 t
  unfold iblk3
  rw [View.read_apply]
  show V c (Pipeline.arrRef spec3 3) _ = V c (Pipeline.arrRef spec3 3) _
  congr 1
  funext a
  apply Fin.ext
  match a with
  | ⟨0, _⟩ => show win3_3.index t (0 : Fin 2) * 1 + 1 * 0 = 0; rw [e0]
  | ⟨1, _⟩ => show win3_3.index t (1 : Fin 2) * 128 + 1 * q.val = q.val; rw [e1]; omega

theorem flushed3_4_eq (c : Dev nD) (t : Fin cfg3.N) :
    (dat3 (F := Ideal) V c).flushed 4 t
      = ((cfg3.win 4).blk t).view.read (Elt Ideal) (Cert.Spec.comb2 (agg3 V c) (own3 V c) (dcol3 V c) (brow3 V c)) := by
  show (cfg3.win 4).cut (grid3.coords t) ((dat3 (F := Ideal) V c).after 4 t) = _
  rw [after3_4]
  unfold out3_4
  rw [View.canon_unit_zero zero_off3]
  simp only [View.ld_unit_zero (S := S5000x128) zero_off3, View.ld_unit_zero (S := S5000x1) zero_off3, View.ld_unit_zero (S := S1x128) zero_off3]
  obtain ⟨-, -, -, -, -, -, -, -, e0, e1, ht⟩ := idx_facts3 t
  funext j
  obtain ⟨p, q, rfl⟩ : ∃ (p : Fin 5000) (q : Fin 128), j = ix2 p q := ⟨j 0, j 1, eq_ix2 j⟩
  have hp : p.val < 5000 := p.isLt
  let r : Fin 50000 := ⟨5000 * t.val + p.val, by omega⟩
  have hr : r.val = 5000 * t.val + p.val := rfl
  have hemb : ((cfg3.win 4).blk t).view.emb (ix2 p q) = ix2 r q := by
    funext a
    apply Fin.ext
    match a with
    | ⟨0, _⟩ => show win3_4.index t (0 : Fin 2) * 5000 + 1 * p.val = 5000 * t.val + p.val; rw [e0]; omega
    | ⟨1, _⟩ => show win3_4.index t (1 : Fin 2) * 128 + 1 * q.val = q.val; rw [e1]; omega
  show k3_pay1 (F := Ideal) (iblk3 V c 2 t) (iblk3 V c 2 t) (iblk3 V c 3 t) (iblk3 V c 0 t) (iblk3 V c 1 t) (ix2 p q)
    = Cert.Spec.comb2 (agg3 V c) (own3 V c) (dcol3 V c) (brow3 V c) (((cfg3.win 4).blk t).view.emb (ix2 p q))
  rw [hemb, Cert.Spec.comb2_ix2]
  refine (pay3_apply (iblk3 V c 0 t) (iblk3 V c 1 t) (iblk3 V c 2 t) (iblk3 V c 3 t) p q).trans ?_
  rw [iblk3_0_apply V c t p q r hr, iblk3_1_apply V c t p q r hr, iblk3_2_apply V c t p r hr, iblk3_3_apply V c t q]
  rfl

theorem mem_blk3_4 (t : Fin cfg3.N) (i : S50000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v125).slice (win3_4.rect t)).set ↔ _
  rw [View.set_slice_whole, Rect.mem_set_unit]
  exact Iff.rfl

theorem cover3_4_arr (i : S50000x128.Idx) : ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ := idx_onto3 ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk3_4]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- Region 3's output is the combine of its four input arrays. -/
theorem final3_4 (c : Dev nD) : ((dat3 (F := Ideal) V c).arrAt 4 cfg3.N : Cert.Spec.A2 50000 128)
    = Cert.Spec.comb2 (V c (Pipeline.arrRef spec3 0)) (V c (Pipeline.arrRef spec3 1)) (V c (Pipeline.arrRef spec3 2)) (V c (Pipeline.arrRef spec3 3)) :=
  (dat3 (F := Ideal) V c).arrAt_eq_of_cover 4 (Cert.Spec.comb2 (agg3 V c) (own3 V c) (dcol3 V c) (brow3 V c))
    (fun t _ => flushed3_4_eq V c t) cover3_4_arr

end Cert.KernelIdeal.Hand

end
-- ==== Proof.LibMatmulTAt.lean ====
import Idealize.ShloMosaic.PureOps.Ideal.Laws
import Idealize.ShloMosaic.Lib.ValueIdx

noncomputable section

namespace Idealize.ShloMosaic.MatmulTAt

open Idealize.ShloMosaic Idealize.ShloMosaic.ValueIdx

variable {M K N : Nat} (d : DotDims ⟨2, ![K, M]⟩ ⟨2, ![K, N]⟩ ⟨2, ![M, N]⟩)

private theorem coord_congr (j : (⟨2, ![M, N]⟩ : Shape).Idx) (p q : Nat) (hp : p < 2) (hq : q < 2) (h : p = q) :
    (j ⟨p, hp⟩).val = (j ⟨q, hq⟩).val := by subst h; rfl

theorem rows_l1 (hlb : d.lhsBatch = []) (hln : d.lhsNonContracting = [1])
    (j : (⟨2, ![M, N]⟩ : Shape).Idx) (k : d.contr.Idx) : (d.lhsIdx j k 1).val = (j 0).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

theorem rows_r1 (hlb : d.lhsBatch = []) (hrb : d.rhsBatch = []) (hln : d.lhsNonContracting = [1]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- A matrix product contracting the ROWS of both operands, into zero, is the sum over k of `l (k, p) * r (k, q)`. -/
theorem matmulT_plain {φ₁ φ₂ : FTy} (hr : d.contr.rank = 1) (hs : d.contr.size ⟨0, by omega⟩ = K)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (l : FVec Ideal ⟨2, ![K, M]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 k p) * r (ix2 k q) := by
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 k p := funext fun a => Fin.ext (by
    match a with
    | ⟨0, _⟩ => exact (d.lhsIdx_val_of_single hlc _ _).trans hk
    | ⟨1, _⟩ => exact rows_l1 d hlb hln _ _)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rows_r1 d hlb hrb hln hrn _ _)
  rw [el, er]

end Idealize.ShloMosaic.MatmulTAt

end
-- ==== Proof.LibOneHotSum.lean ====
import Idealize.ShloMosaic.PureOps.Ideal.Laws
import Idealize.ShloMosaic.Lib.ValueIdx
import Idealize.ShloMosaic.Lib.Pipeline.Value

noncomputable section

namespace Idealize.ShloMosaic.OneHotSum

open Idealize.ShloMosaic Idealize.ShloMosaic.ValueIdx

/-- A word comparison widened and converted is the indicator of equality. -/
theorem eqBit_toEReal (a b : BitVec 32) :
    (((((IntOp.cmpi .eq a b).setWidth 32).toInt : ℤ) : ℝ) : EReal) = if a = b then 1 else 0 := by
  by_cases h : a = b
  · subst h
    have e : IntOp.cmpi .eq a a = 1#1 := by simp [IntOp.cmpi]
    rw [e, if_pos rfl]
    have : ((1#1 : BitVec 1).setWidth 32).toInt = 1 := by decide
    rw [this]; norm_num
  · have e : IntOp.cmpi .eq a b = 0#1 := by
      show BitVec.ofBool (a == b) = 0#1
      rw [beq_false_of_ne h]; rfl
    rw [e, if_neg h]
    have : ((0#1 : BitVec 1).setWidth 32).toInt = 0 := by decide
    rw [this]; norm_num

/-- Multiplying by a zero or a one keeps or drops a term, on every extended real. -/
theorem sum_ite_one_mul {ι : Type*} (s : Finset ι) (p : ι → Prop) [DecidablePred p] (x : ι → EReal) :
    ∑ r ∈ s, (if p r then (1 : EReal) else 0) * x r = ∑ r ∈ s.filter p, x r := by
  rw [Finset.sum_filter]
  refine Finset.sum_congr rfl fun r _ => ?_
  split
  · exact one_mul _
  · exact zero_mul _

def tileRow {N R : ℕ} (n : ℕ) (hn : R * (n + 1) ≤ N) (r : Fin R) : Fin N :=
  ⟨R * n + r.val, by have := r.isLt; have hm : R * (n + 1) = R * n + R := Nat.mul_succ R n; omega⟩

theorem tileRow_val {N R : ℕ} (n : ℕ) (hn : R * (n + 1) ≤ N) (r : Fin R) : (tileRow n hn r).val = R * n + r.val := rfl

/-- The sum over the indices below R·(n+1) is the sum below R·n plus the sum over tile n. -/
theorem sum_filter_tile_succ {M : Type*} [AddCommMonoid M] {N R : ℕ} (n : ℕ) (hn : R * (n + 1) ≤ N)
    (P : Fin N → Prop) [DecidablePred P] (f : Fin N → M) :
    ∑ e ∈ Finset.univ.filter (fun e : Fin N => e.val < R * (n + 1) ∧ P e), f e
      = ∑ e ∈ Finset.univ.filter (fun e : Fin N => e.val < R * n ∧ P e), f e
        + ∑ r ∈ Finset.univ.filter (fun r : Fin R => P (tileRow n hn r)), f (tileRow n hn r) := by
  have hm : R * (n + 1) = R * n + R := Nat.mul_succ R n
  have hsplit : Finset.univ.filter (fun e : Fin N => e.val < R * (n + 1) ∧ P e)
      = Finset.univ.filter (fun e : Fin N => e.val < R * n ∧ P e)
        ∪ Finset.univ.filter (fun e : Fin N => (R * n ≤ e.val ∧ e.val < R * (n + 1)) ∧ P e) := by
    ext e
    simp only [Finset.mem_filter, Finset.mem_univ, true_and, Finset.mem_union]
    constructor
    · rintro ⟨h1, h2⟩
      by_cases h : e.val < R * n
      · exact Or.inl ⟨h, h2⟩
      · exact Or.inr ⟨⟨by omega, h1⟩, h2⟩
    · rintro (⟨h1, h2⟩ | ⟨⟨_, h1⟩, h2⟩)
      · exact ⟨by omega, h2⟩
      · exact ⟨h1, h2⟩
  rw [hsplit, Finset.sum_union (Finset.disjoint_filter.mpr fun e _ h1 h2 => by omega)]
  congr 1
  symm
  refine Finset.sum_bij (fun r _ => tileRow n hn r) ?_ ?_ ?_ ?_
  · intro r hr
    have hP := (Finset.mem_filter.mp hr).2
    have := r.isLt
    exact Finset.mem_filter.mpr ⟨Finset.mem_univ _, ⟨by rw [tileRow_val]; omega, by rw [tileRow_val]; omega⟩, hP⟩
  · intro r₁ _ r₂ _ h
    have := congrArg Fin.val h
    rw [tileRow_val, tileRow_val] at this
    exact Fin.ext (by omega)
  · intro e he
    obtain ⟨⟨h1, h2⟩, hP⟩ := (Finset.mem_filter.mp he).2
    have he' : tileRow n hn ⟨e.val - R * n, by omega⟩ = e := Fin.ext (by rw [tileRow_val]; show R * n + (e.val - R * n) = e.val; omega)
    exact ⟨⟨e.val - R * n, by omega⟩, Finset.mem_filter.mpr ⟨Finset.mem_univ _, by rw [he']; exact hP⟩, he'⟩
  · intro r _; rfl

theorem filter_lt_zero {N R : ℕ} (P : Fin N → Prop) [DecidablePred P] :
    Finset.univ.filter (fun e : Fin N => e.val < R * 0 ∧ P e) = ∅ := by
  ext e; simp

theorem filter_lt_of_le {N R : ℕ} (n : ℕ) (hn : N ≤ R * n) (P : Fin N → Prop) [DecidablePred P] :
    Finset.univ.filter (fun e : Fin N => e.val < R * n ∧ P e) = Finset.univ.filter P := by
  ext e
  simp only [Finset.mem_filter, Finset.mem_univ, true_and]
  exact ⟨fun h => h.2, fun h => ⟨lt_of_lt_of_le e.isLt hn, h⟩⟩

theorem eq_ofNat_iff_toInt (w : BitVec 32) (g : ℕ) (hg : g < 2 ^ 31) : w = BitVec.ofNat 32 g ↔ w.toInt = (g : ℤ) := by
  have e := BitVec.toInt_eq_toNat_cond w
  have hw : w.toNat < 2 ^ 32 := w.isLt
  have hn : w = BitVec.ofNat 32 g ↔ w.toNat = g := by
    rw [← BitVec.toNat_inj, BitVec.toNat_ofNat, Nat.mod_eq_of_lt (by omega)]
  rw [hn]
  constructor <;> intro h <;> (split at e <;> omega)

end Idealize.ShloMosaic.OneHotSum

end
-- ==== Proof.Val.Pay4.lean ====
import proofs.«422729_j12214886989913_2_alg».proof.Proof.Gen.KernelIdeal.Skeleton
import proofs.«422729_j12214886989913_2_alg».proof.Proof.LibMatmulTAt
import proofs.«422729_j12214886989913_2_alg».proof.Proof.LibOneHotSum
import proofs.«422729_j12214886989913_2_alg».proof.Proof.LibDotAt
import Idealize.ShloMosaic.Lib.ValueIdx
import Idealize.ShloMosaic.Lib.IdealHost
import Idealize.ShloMosaic.Lib.Pipeline.Value

noncomputable section

open scoped BigOperators

namespace Cert.KernelIdeal.Hand

open Cert.KernelIdeal Cert.KernelIdeal.Gen
open Idealize.ShloMosaic Idealize.ShloMosaic.ValueIdx

theorem pay1_at (g : Fin 64) (d : Fin 128) : k4_pay1 (F := Ideal) (ix2 g d) = 0 := by
  show shapeCast S64x128 (broadcast S64x128 (Scalar.ofBits (F := Ideal) .f32 0x00000000#32)) shapeCasts_S64x128_S64x128 (ix2 g d) = 0
  rw [shapeCast_self, broadcast_apply]
  exact Ideal.ofBits_zero_f32

theorem pay2_at (g : Fin 64) (z : Fin 1) : k4_pay2 (F := Ideal) (ix2 g z) = 0 := by
  show shapeCast S64x1 (broadcast S64x1 (Scalar.ofBits (F := Ideal) .f32 0x00000000#32)) shapeCasts_S64x1_S64x1 (ix2 g z) = 0
  rw [shapeCast_self, broadcast_apply]
  exact Ideal.ofBits_zero_f32

/-- The one-hot entry (r, g): one where node r's graph word is g. -/
theorem pay3_at (v6 : Vec Ideal S5000x1 .i32) (r : Fin 5000) (g : Fin 64) :
    k4_pay3 (F := Ideal) v6 (ix2 r g) = if v6 (ix2 r (0 : Fin 1)) = BitVec.ofNat 32 g.val then 1 else 0 := by
  show (truncf .bf16 (sitofp .f32 (extui 32 (cmpi .eq
      (broadcastTo S5000x64 (shapeCast S5000x1 v6 shapeCasts_S5000x1_S5000x1) broadcasts_S5000x1_S5000x64)
      (broadcastTo S5000x64 (iota .tc S1x64 32 [1] iota_S1x64_d1_w32) broadcasts_S1x64_S5000x64)) natLt_1_32)
        : FVec Ideal S5000x64 .f32) bitsLt_bf16_f32 : FVec Ideal S5000x64 .bf16) (ix2 r g) = _
  rw [shapeCast_self]
  have eb : broadcastTo S5000x64 v6 broadcasts_S5000x1_S5000x64 (ix2 r g) = v6 (ix2 r (0 : Fin 1)) :=
    broadcastTo_apply v6 broadcasts_S5000x1_S5000x64 (ix2 r g) (ix2 r (0 : Fin 1)) (fun a => by
      match a with
      | ⟨0, _⟩ => rfl
      | ⟨1, _⟩ => rfl)
  have ei : broadcastTo S5000x64 (iota .tc S1x64 32 [1] iota_S1x64_d1_w32) broadcasts_S1x64_S5000x64 (ix2 r g)
      = BitVec.ofNat 32 g.val :=
    (broadcastTo_apply (iota .tc S1x64 32 [1] iota_S1x64_d1_w32) broadcasts_S1x64_S5000x64 (ix2 r g)
      (ix2 (0 : Fin 1) g) (fun a => by
      match a with
      | ⟨0, _⟩ => rfl
      | ⟨1, _⟩ => rfl)).trans (iota_single_apply .tc S1x64 32 1 iota_S1x64_d1_w32 (ix2 (0 : Fin 1) g))
  show (((((IntOp.cmpi .eq (broadcastTo S5000x64 v6 broadcasts_S5000x1_S5000x64 (ix2 r g))
      (broadcastTo S5000x64 (iota .tc S1x64 32 [1] iota_S1x64_d1_w32) broadcasts_S1x64_S5000x64 (ix2 r g))).setWidth 32).toInt : ℤ) : ℝ) : EReal) = _
  rw [eb, ei]
  exact OneHotSum.eqBit_toEReal _ _

/-- The sum accumulator's update: what it held plus the tile's rows of graph g. -/
theorem pay4_at (x : Vec Ideal S5000x128 .f32) (v6 : Vec Ideal S5000x1 .i32) (a : Vec Ideal S64x128 .f32)
    (g : Fin 64) (d : Fin 128) :
    k4_pay4 (F := Ideal) x v6 a (ix2 g d)
      = a (ix2 g d) + ∑ r : Fin 5000, (if v6 (ix2 r (0 : Fin 1)) = BitVec.ofNat 32 g.val then (1 : EReal) else 0) * x (ix2 r d) := by
  show shapeCast S64x128 (addf a (matmul dot_S5000x64_S5000x128_S64x128_0_0_1_1_n_n none (k4_pay3 v6)
      (truncf .bf16 (shapeCast S5000x128 x shapeCasts_S5000x128_S5000x128) bitsLt_bf16_f32 : FVec Ideal S5000x128 .bf16)
      (constant S64x128 .f32 0x00000000#32))) shapeCasts_S64x128_S64x128 (ix2 g d) = _
  rw [shapeCast_self, addf_apply,
    MatmulTAt.matmulT_plain dot_S5000x64_S5000x128_S64x128_0_0_1_1_n_n rfl rfl rfl rfl rfl rfl rfl rfl]
  refine congrArg (a (ix2 g d) + ·) (Finset.sum_congr rfl fun r _ => ?_)
  rw [pay3_at, truncf_apply, shapeCast_self]

theorem pay5_at (v6 : Vec Ideal S5000x1 .i32) (n : Vec Ideal S64x1 .f32) (g : Fin 64) (z : Fin 1) :
    k4_pay5 (F := Ideal) v6 n (ix2 g z)
      = n (ix2 g z) + ∑ r : Fin 5000, (if v6 (ix2 r (0 : Fin 1)) = BitVec.ofNat 32 g.val then (1 : EReal) else 0) * 1 := by
  show shapeCast S64x1 (addf n (matmul dot_S5000x64_S5000x1_S64x1_0_0_1_1_n_n none (k4_pay3 v6)
      (broadcast S5000x1 (Scalar.ofBits (F := Ideal) .bf16 0x3F80#16) : FVec Ideal S5000x1 .bf16)
      (constant S64x1 .f32 0x00000000#32))) shapeCasts_S64x1_S64x1 (ix2 g z) = _
  rw [shapeCast_self, addf_apply,
    MatmulTAt.matmulT_plain dot_S5000x64_S5000x1_S64x1_0_0_1_1_n_n rfl rfl rfl rfl rfl rfl rfl rfl]
  refine congrArg (n (ix2 g z) + ·) (Finset.sum_congr rfl fun r _ => ?_)
  rw [pay3_at, broadcast_apply]
  exact congrArg (_ * ·) Ideal.ofBits_one_bf16

/-- The head applied to the accumulated sums over the counts. -/
theorem pay6_at (acc : Vec Ideal S64x128 .f32) (cnt : Vec Ideal S64x1 .f32) (wl : Vec Ideal S128x1 .f32)
    (bl : Vec Ideal S1x1 .f32) (g : Fin 64) (z : Fin 1) :
    k4_pay6 (F := Ideal) acc cnt wl bl (ix2 g z)
      = (∑ d : Fin 128, Ideal.div (acc (ix2 g d)) (max (cnt (ix2 g (0 : Fin 1))) 1) * wl (ix2 d (0 : Fin 1)))
        + bl (ix2 (0 : Fin 1) (0 : Fin 1)) := by
  obtain rfl : z = 0 := Subsingleton.elim _ _
  show addf (matmul dot_S64x128_S128x1_S64x1_1_0_0_1_n_n none
      (truncf .bf16 (divf acc (broadcastTo S64x128 (maximumf cnt (broadcast S64x1 (Scalar.ofBits (F := Ideal) .f32 0x3F800000#32)))
        broadcasts_S64x1_S64x128)) bitsLt_bf16_f32 : FVec Ideal S64x128 .bf16)
      (truncf .bf16 wl bitsLt_bf16_f32 : FVec Ideal S128x1 .bf16) (constant S64x1 .f32 0x00000000#32))
      (broadcastTo S64x1 (shapeCast S1x1 bl shapeCasts_S1x1_S1x1) broadcasts_S1x1_S64x1) (ix2 g (0 : Fin 1)) = _
  rw [addf_apply, DotAt.matmul_plain dot_S64x128_S128x1_S64x1_1_0_0_1_n_n rfl rfl rfl rfl rfl rfl rfl rfl,
    shapeCast_self]
  have eb : broadcastTo S64x1 bl broadcasts_S1x1_S64x1 (ix2 g (0 : Fin 1)) = bl (ix2 (0 : Fin 1) (0 : Fin 1)) :=
    broadcastTo_apply bl broadcasts_S1x1_S64x1 (ix2 g (0 : Fin 1)) (ix2 (0 : Fin 1) (0 : Fin 1)) (fun a => by
      match a with
      | ⟨0, _⟩ => rfl
      | ⟨1, _⟩ => rfl)
  rw [eb]
  refine congrArg (· + bl (ix2 (0 : Fin 1) (0 : Fin 1))) (Finset.sum_congr rfl fun d _ => ?_)
  have em : ∀ d : Fin 128, broadcastTo S64x128 (maximumf cnt (broadcast S64x1 (Scalar.ofBits (F := Ideal) .f32 0x3F800000#32)))
      broadcasts_S64x1_S64x128 (ix2 g d) = max (cnt (ix2 g (0 : Fin 1))) 1 := fun d =>
    (broadcastTo_apply _ broadcasts_S64x1_S64x128 (ix2 g d) (ix2 g (0 : Fin 1)) (fun a => by
      match a with
      | ⟨0, _⟩ => rfl
      | ⟨1, _⟩ => rfl)).trans (by
        rw [maximumf_apply, broadcast_apply]
        exact congrArg (max _ ·) Ideal.ofBits_one_f32)
  rw [truncf_apply, truncf_apply, divf_apply, em]

end Cert.KernelIdeal.Hand

end
-- ==== Proof.Val.Pool4.lean ====
import proofs.«422729_j12214886989913_2_alg».proof.Proof.Spec
import proofs.«422729_j12214886989913_2_alg».proof.Proof.LibOneHotSum

noncomputable section

open scoped BigOperators

namespace Cert.Spec

open Idealize.ShloMosaic Idealize.ShloMosaic.ValueIdx Idealize.ShloMosaic.OneHotSum

/-- Graph g's sum over the nodes of the first m row tiles; `cntBelow2` counts them. -/
def sumBelow2 (h : A2 50000 128) (bcol : W2 50000 1) (m : ℕ) (g : Fin 64) (d : Fin 128) : EReal :=
  ∑ e ∈ Finset.univ.filter (fun e : Fin 50000 => e.val < 5000 * m ∧ bcol (ix2 e (0 : Fin 1)) = BitVec.ofNat 32 g.val),
    h (ix2 e d)

def cntBelow2 (bcol : W2 50000 1) (m : ℕ) (g : Fin 64) : EReal :=
  ∑ e ∈ Finset.univ.filter (fun e : Fin 50000 => e.val < 5000 * m ∧ bcol (ix2 e (0 : Fin 1)) = BitVec.ofNat 32 g.val),
    (1 : EReal)

variable (h : A2 50000 128) (bcol : W2 50000 1) (g : Fin 64) (d : Fin 128)

theorem sumBelow2_zero : sumBelow2 h bcol 0 g d = 0 := by
  unfold sumBelow2
  rw [filter_lt_zero (R := 5000) (fun e : Fin 50000 => bcol (ix2 e (0 : Fin 1)) = BitVec.ofNat 32 g.val)]
  exact Finset.sum_empty

theorem cntBelow2_zero : cntBelow2 bcol 0 g = 0 := by
  unfold cntBelow2
  rw [filter_lt_zero (R := 5000) (fun e : Fin 50000 => bcol (ix2 e (0 : Fin 1)) = BitVec.ofNat 32 g.val)]
  exact Finset.sum_empty

/-- One more tile adds that tile's nodes of graph g. -/
theorem sumBelow2_succ (m : ℕ) (hm : 5000 * (m + 1) ≤ 50000) :
    sumBelow2 h bcol (m + 1) g d
      = sumBelow2 h bcol m g d
        + ∑ r : Fin 5000, (if bcol (ix2 (tileRow m hm r) (0 : Fin 1)) = BitVec.ofNat 32 g.val then (1 : EReal) else 0)
            * h (ix2 (tileRow m hm r) d) := by
  unfold sumBelow2
  rw [sum_filter_tile_succ m hm (fun e : Fin 50000 => bcol (ix2 e (0 : Fin 1)) = BitVec.ofNat 32 g.val)
      (fun e : Fin 50000 => h (ix2 e d)),
    sum_ite_one_mul Finset.univ (fun r : Fin 5000 => bcol (ix2 (tileRow m hm r) (0 : Fin 1)) = BitVec.ofNat 32 g.val)
      (fun r : Fin 5000 => h (ix2 (tileRow m hm r) d))]

theorem cntBelow2_succ (m : ℕ) (hm : 5000 * (m + 1) ≤ 50000) :
    cntBelow2 bcol (m + 1) g
      = cntBelow2 bcol m g
        + ∑ r : Fin 5000, (if bcol (ix2 (tileRow m hm r) (0 : Fin 1)) = BitVec.ofNat 32 g.val then (1 : EReal) else 0) * 1 := by
  unfold cntBelow2
  rw [sum_filter_tile_succ m hm (fun e : Fin 50000 => bcol (ix2 e (0 : Fin 1)) = BitVec.ofNat 32 g.val)
      (fun _ : Fin 50000 => (1 : EReal)),
    sum_ite_one_mul Finset.univ (fun r : Fin 5000 => bcol (ix2 (tileRow m hm r) (0 : Fin 1)) = BitVec.ofNat 32 g.val)
      (fun _ : Fin 5000 => (1 : EReal))]

/-- Ten tiles are all the nodes. -/
theorem sumBelow2_all (m : ℕ) (hm : 50000 ≤ 5000 * m) : sumBelow2 h bcol m g d = sumBy2 h bcol g d := by
  unfold sumBelow2 sumBy2
  rw [filter_lt_of_le m hm (fun e : Fin 50000 => bcol (ix2 e (0 : Fin 1)) = BitVec.ofNat 32 g.val), Finset.sum_filter]

theorem cntBelow2_all (m : ℕ) (hm : 50000 ≤ 5000 * m) : cntBelow2 bcol m g = cntBy2 bcol g := by
  unfold cntBelow2 cntBy2
  rw [filter_lt_of_le m hm (fun e : Fin 50000 => bcol (ix2 e (0 : Fin 1)) = BitVec.ofNat 32 g.val), Finset.sum_filter]

end Cert.Spec

end
-- ==== Proof.Val.Reg4.lean ====
import proofs.«422729_j12214886989913_2_alg».proof.Proof.KI.Reg4
import proofs.«422729_j12214886989913_2_alg».proof.Proof.Spec
import proofs.«422729_j12214886989913_2_alg».proof.Proof.Val.Pay4
import proofs.«422729_j12214886989913_2_alg».proof.Proof.Val.Pool4
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.ShloMosaic.ValueIdx Idealize.ShloMosaic.OneHotSum
open Idealize.SL.Sem
open Idealize.ShloMosaic.Pipeline (Dat)

variable (V : (c : Dev nD) → (b : Ref sig .tc) → Buf (Elt Ideal) ((c : Thread nD τ).loc b))

theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0 :=
  (by decide +kernel : ∀ t : Fin grid4.N, _)

theorem tile_le4 (t : Fin cfg4.N) : 5000 * (t.val + 1) ≤ 50000 := by
  have h : t.val < 10 := lt_of_lt_of_eq t.isLt (show cfg4.N = 10 from N_4)
  omega

theorem iblk4_0_at (c : Dev nD) (t : Fin cfg4.N) (p : Fin 5000) (q : Fin 128) :
    iblk4 V c 0 t (ix2 p q)
      = (V c (Pipeline.arrRef spec4 0) : Cert.Spec.A2 50000 128) (ix2 (tileRow t.val (tile_le4 t) p) q) := by
  obtain ⟨e00, e01, -⟩ := idx_facts4 t
  have h0 : ((cfg4.win 0).blk t).view.emb (ix2 p q) = (ix2 (tileRow t.val (tile_le4 t) p) q : S50000x128.Idx) := by
    funext a; apply Fin.ext
    match a with
    | ⟨0, _⟩ => show win4_0.index t (0 : Fin 2) * 5000 + 1 * p.val = 5000 * t.val + p.val; omega
    | ⟨1, _⟩ => show win4_0.index t (1 : Fin 2) * 128 + 1 * q.val = q.val; omega
  show V c (Pipeline.arrRef spec4 0) (((cfg4.win 0).blk t).view.emb (ix2 p q)) = _
  rw [h0]

theorem iblk4_1_at (c : Dev nD) (t : Fin cfg4.N) (p : Fin 5000) (z : Fin 1) :
    iblk4 V c 1 t (ix2 p z)
      = (V c (Pipeline.arrRef spec4 1) : Cert.Spec.W2 50000 1) (ix2 (tileRow t.val (tile_le4 t) p) z) := by
  obtain ⟨-, -, e10, e11, -⟩ := idx_facts4 t
  have h1 : ((cfg4.win 1).blk t).view.emb (ix2 p z) = (ix2 (tileRow t.val (tile_le4 t) p) z : S50000x1.Idx) := by
    funext a; apply Fin.ext
    match a with
    | ⟨0, _⟩ => show win4_1.index t (0 : Fin 2) * 5000 + 1 * p.val = 5000 * t.val + p.val; omega
    | ⟨1, _⟩ => show win4_1.index t (1 : Fin 2) * 1 + 1 * z.val = z.val; omega
  show V c (Pipeline.arrRef spec4 1) (((cfg4.win 1).blk t).view.emb (ix2 p z)) = _
  rw [h1]

theorem iblk4_2_at (c : Dev nD) (t : Fin cfg4.N) (d : Fin 128) (z : Fin 1) :
    iblk4 V c 2 t (ix2 d z) = (V c (Pipeline.arrRef spec4 2) : Cert.Spec.A2 128 1) (ix2 d z) := by
  obtain ⟨-, -, -, -, e20, e21, -⟩ := idx_facts4 t
  have h2 : ((cfg4.win 2).blk t).view.emb (ix2 d z) = (ix2 d z : S128x1.Idx) := by
    funext a; apply Fin.ext
    match a with
    | ⟨0, _⟩ => show win4_2.index t (0 : Fin 2) * 128 + 1 * d.val = d.val; omega
    | ⟨1, _⟩ => show win4_2.index t (1 : Fin 2) * 1 + 1 * z.val = z.val; omega
  show V c (Pipeline.arrRef spec4 2) (((cfg4.win 2).blk t).view.emb (ix2 d z)) = _
  rw [h2]

theorem iblk4_3_at (c : Dev nD) (t : Fin cfg4.N) (y z : Fin 1) :
    iblk4 V c 3 t (ix2 y z) = (V c (Pipeline.arrRef spec4 3) : Cert.Spec.A2 1 1) (ix2 y z) := by
  obtain ⟨-, -, -, -, -, -, e30, e31, -⟩ := idx_facts4 t
  have h3 : ((cfg4.win 3).blk t).view.emb (ix2 y z) = (ix2 y z : S1x1.Idx) := by
    funext a; apply Fin.ext
    match a with
    | ⟨0, _⟩ => show win4_3.index t (0 : Fin 2) * 1 + 1 * y.val = y.val; omega
    | ⟨1, _⟩ => show win4_3.index t (1 : Fin 2) * 1 + 1 * z.val = z.val; omega
  show V c (Pipeline.arrRef spec4 3) (((cfg4.win 3).blk t).view.emb (ix2 y z)) = _
  rw [h3]

theorem acc_step4 (c : Dev nD) (t : Fin cfg4.N) (a : Vec Ideal S64x128 .f32) (g : Fin 64) (d : Fin 128)
    (ha : a (ix2 g d) = Cert.Spec.sumBelow2 (V c (Pipeline.arrRef spec4 0)) (V c (Pipeline.arrRef spec4 1)) t.val g d) :
    k4_pay4 (iblk4 V c 0 t) (iblk4 V c 1 t) a (ix2 g d)
      = Cert.Spec.sumBelow2 (V c (Pipeline.arrRef spec4 0)) (V c (Pipeline.arrRef spec4 1)) (t.val + 1) g d := by
  refine (pay4_at (iblk4 V c 0 t) (iblk4 V c 1 t) a g d).trans ?_
  rw [Cert.Spec.sumBelow2_succ (V c (Pipeline.arrRef spec4 0)) (V c (Pipeline.arrRef spec4 1)) g d t.val (tile_le4 t), ha]
  refine congrArg (_ + ·) (Finset.sum_congr rfl fun r _ => ?_)
  rw [iblk4_0_at V c t r d, iblk4_1_at V c t r (0 : Fin 1)]

theorem cnt_step4 (c : Dev nD) (t : Fin cfg4.N) (n : Vec Ideal S64x1 .f32) (g : Fin 64) (z : Fin 1)
    (hn : n (ix2 g z) = Cert.Spec.cntBelow2 (V c (Pipeline.arrRef spec4 1)) t.val g) :
    k4_pay5 (iblk4 V c 1 t) n (ix2 g z)
      = Cert.Spec.cntBelow2 (V c (Pipeline.arrRef spec4 1)) (t.val + 1) g := by
  refine (pay5_at (iblk4 V c 1 t) n g z).trans ?_
  rw [Cert.Spec.cntBelow2_succ (V c (Pipeline.arrRef spec4 1)) g t.val (tile_le4 t), hn]
  refine congrArg (_ + ·) (Finset.sum_congr rfl fun r _ => ?_)
  rw [iblk4_1_at V c t r (0 : Fin 1)]

/-- After point n the sum accumulator holds every graph's sum over the first n + 1 row tiles, -/
theorem acc_inv4 (c : Dev nD) : ∀ (n : ℕ) (hn : n < cfg4.N) (g : Fin 64) (d : Fin 128),
    accAt4 V c n hn (ix2 g d)
      = Cert.Spec.sumBelow2 (V c (Pipeline.arrRef spec4 0)) (V c (Pipeline.arrRef spec4 1)) (n + 1) g d
  | 0, hn, g, d =>
    (congrFun (accAt4_zero V c hn) (ix2 g d)).trans
      (acc_step4 V c ⟨0, hn⟩ (k4_pay1 (F := Ideal)) g d ((pay1_at g d).trans (Cert.Spec.sumBelow2_zero _ _ g d).symm))
  | n + 1, hn, g, d =>
    (congrFun (accAt4_succ V c n hn) (ix2 g d)).trans
      (acc_step4 V c ⟨n + 1, hn⟩ (accAt4 V c n (Nat.lt_of_succ_lt hn)) g d (acc_inv4 c n (Nat.lt_of_succ_lt hn) g d))

/-- and the count accumulator every graph's count. -/
theorem cnt_inv4 (c : Dev nD) : ∀ (n : ℕ) (hn : n < cfg4.N) (g : Fin 64) (z : Fin 1),
    cntAt4 V c n hn (ix2 g z) = Cert.Spec.cntBelow2 (V c (Pipeline.arrRef spec4 1)) (n + 1) g
  | 0, hn, g, z =>
    (congrFun (cntAt4_zero V c hn) (ix2 g z)).trans
      (cnt_step4 V c ⟨0, hn⟩ (k4_pay2 (F := Ideal)) g z ((pay2_at g z).trans (Cert.Spec.cntBelow2_zero _ g).symm))
  | n + 1, hn, g, z =>
    (congrFun (cntAt4_succ V c n hn) (ix2 g z)).trans
      (cnt_step4 V c ⟨n + 1, hn⟩ (cntAt4 V c n (Nat.lt_of_succ_lt hn)) g z (cnt_inv4 c n (Nat.lt_of_succ_lt hn) g z))

theorem out4_4_at (c : Dev nD) (t : Fin cfg4.N) (ht : 50000 ≤ 5000 * (t.val + 1)) (g : Fin 64) (z : Fin 1) :
    out4_4 V c t (ix2 g z)
      = Cert.Spec.pool2At (V c (Pipeline.arrRef spec4 0)) (V c (Pipeline.arrRef spec4 1)) (V c (Pipeline.arrRef spec4 2))
          (V c (Pipeline.arrRef spec4 3)) g := by
  unfold out4_4
  refine (pay6_at (accAt4 V c t.val t.isLt) (cntAt4 V c t.val t.isLt) (iblk4 V c 2 t) (iblk4 V c 3 t) g z).trans ?_
  unfold Cert.Spec.pool2At
  refine congrArg₂ (· + ·) (Finset.sum_congr rfl fun d _ => ?_) (iblk4_3_at V c t (0 : Fin 1) (0 : Fin 1))
  rw [acc_inv4 V c t.val t.isLt g d, cnt_inv4 V c t.val t.isLt g (0 : Fin 1),
    Cert.Spec.sumBelow2_all _ _ g d (t.val + 1) ht, Cert.Spec.cntBelow2_all _ g (t.val + 1) ht, iblk4_2_at V c t d (0 : Fin 1)]

theorem flushed4_4_eq (c : Dev nD) (t : Fin cfg4.N) (hf : (cfg4.win 4).flush t = true) :
    (dat4 (F := Ideal) V c).flushed 4 t
      = ((cfg4.win 4).blk t).view.read (Elt Ideal)
          (Cert.Spec.pool2 (V c (Pipeline.arrRef spec4 0)) (V c (Pipeline.arrRef spec4 1)) (V c (Pipeline.arrRef spec4 2))
            (V c (Pipeline.arrRef spec4 3))) := by
  show (cfg4.win 4).cut (grid4.coords t) ((dat4 (F := Ideal) V c).after 4 t) = _
  rw [after4_4]
  have h9 : t.val % 10 = 9 := (flush4_4 t).mp hf
  obtain ⟨-, -, -, -, -, -, -, -, e40, e41⟩ := idx_facts4 t
  funext j
  obtain ⟨g, z, rfl⟩ : ∃ (g : Fin 64) (z : Fin 1), j = ix2 g z := ⟨j 0, j 1, eq_ix2 j⟩
  have h4 : ((cfg4.win 4).blk t).view.emb (ix2 g z) = (ix2 g z : S64x1.Idx) := by
    funext a; apply Fin.ext
    match a with
    | ⟨0, _⟩ => show win4_4.index t (0 : Fin 2) * 64 + 1 * g.val = g.val; omega
    | ⟨1, _⟩ => show win4_4.index t (1 : Fin 2) * 1 + 1 * z.val = z.val; omega
  show out4_4 V c t (ix2 g z)
    = Cert.Spec.pool2 (V c (Pipeline.arrRef spec4 0)) (V c (Pipeline.arrRef spec4 1)) (V c (Pipeline.arrRef spec4 2))
        (V c (Pipeline.arrRef spec4 3)) (((cfg4.win 4).blk t).view.emb (ix2 g z))
  rw [h4, Cert.Spec.pool2_ix2]
  exact out4_4_at V c t (by omega) g z

theorem mem_blk4_4 (t : Fin cfg4.N) (i : S64x1.Idx) :
    i ∈ ((cfg4.win 4).blk t).view.set ↔ ∀ a : Fin 2, win4_4.index t a * S64x1.size a ≤ (i a).val
      ∧ (i a).val < win4_4.index t a * S64x1.size a + S64x1.size a := by
  show i ∈ ((View.whole main_v128).slice (win4_4.rect t)).set ↔ _
  rw [View.set_slice_whole, Rect.mem_set_unit]
  exact Iff.rfl

theorem covered4_4 (i : S64x1.Idx) :
    ∃ t : Fin cfg4.N, (cfg4.win 4).flush t = true ∧ i ∈ ((cfg4.win 4).blk t).view.set := by
  have hi0 : (i 0).val < 64 := idx2_lt0 i
  have hi1 : (i 1).val < 1 := idx2_lt1 i
  obtain ⟨-, -, -, -, -, -, -, -, e40, e41⟩ := idx_facts4 t4_9
  refine ⟨t4_9, (flush4_4 t4_9).mpr rfl, ?_⟩
  rw [mem_blk4_4]
  intro a
  match a with
  | ⟨0, _⟩ =>
    show win4_4.index t4_9 (0 : Fin 2) * 64 ≤ (i 0).val ∧ (i 0).val < win4_4.index t4_9 (0 : Fin 2) * 64 + 64
    omega
  | ⟨1, _⟩ =>
    show win4_4.index t4_9 (1 : Fin 2) * 1 ≤ (i 1).val ∧ (i 1).val < win4_4.index t4_9 (1 : Fin 2) * 1 + 1
    omega

/-- Only the last point writes back: region 4's output is the pool of its four input arrays. -/
theorem final4_4 (c : Dev nD) :
    ((dat4 (F := Ideal) V c).arrAt 4 cfg4.N : Cert.Spec.A2 64 1)
      = Cert.Spec.pool2 (V c (Pipeline.arrRef spec4 0)) (V c (Pipeline.arrRef spec4 1)) (V c (Pipeline.arrRef spec4 2))
          (V c (Pipeline.arrRef spec4 3)) :=
  (dat4 (F := Ideal) V c).arrAt_eq_of_cover 4
    (Cert.Spec.pool2 (V c (Pipeline.arrRef spec4 0)) (V c (Pipeline.arrRef spec4 1)) (V c (Pipeline.arrRef spec4 2))
      (V c (Pipeline.arrRef spec4 3)))
    (fun t hf => flushed4_4_eq V c t hf) covered4_4

end Cert.KernelIdeal.Hand

end
-- ==== Proof.Val.Host.lean ====
import proofs.«422729_j12214886989913_2_alg».proof.Proof.Gen.KernelIdeal.Launch
import proofs.«422729_j12214886989913_2_alg».proof.Proof.Gen.ReferenceIdeal.Read
import proofs.«422729_j12214886989913_2_alg».proof.Proof.Spec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.ShloMosaic.StableHlo
open Idealize.SL.Sem
open Cert.ReferenceIdeal.Read

/-- A rank-1 array cast to a column holds entry p at row p; cast to a row, entry q at column q. -/
theorem shapeCast_col {α : Type} {n : ℕ} (x : (⟨1, ![n]⟩ : Shape).Idx → α)
    (h : (⟨1, ![n]⟩ : Shape).ShapeCasts ⟨2, ![n, 1]⟩) :
    shapeCast ⟨2, ![n, 1]⟩ x h = fun i => x (ix1 (i 0)) := by
  funext i
  refine shapeCast_apply x h i (ix1 (i 0)) ?_
  rw [Shape.rowMajor_val_two, Shape.rowMajor_val_one]
  have h1 : (i 1).val < 1 := (i 1).isLt
  show (i 0).val = (i 0).val * 1 + (i 1).val
  omega

theorem shapeCast_row {α : Type} {n : ℕ} (x : (⟨1, ![n]⟩ : Shape).Idx → α)
    (h : (⟨1, ![n]⟩ : Shape).ShapeCasts ⟨2, ![1, n]⟩) :
    shapeCast ⟨2, ![1, n]⟩ x h = fun i => x (ix1 (i 1)) := by
  funext i
  refine shapeCast_apply x h i (ix1 (i 1)) ?_
  rw [Shape.rowMajor_val_two, Shape.rowMajor_val_one]
  have h0 : (i 0).val < 1 := (i 0).isLt
  have e0 : (i 0).val = 0 := by omega
  show (i 1).val = (i 0).val * n + (i 1).val
  rw [e0, Nat.zero_mul, Nat.zero_add]

variable (W : Valuation τ sig (Elt Ideal))
variable (x0 : (⟨Cert.ReferenceIdeal.S50000x128, .f32⟩ : BufTy).Contents (Elt Ideal))
  (x1 : (⟨Cert.ReferenceIdeal.S2x600000, .i32⟩ : BufTy).Contents (Elt Ideal))
  (x2 : (⟨Cert.ReferenceIdeal.S600000, .i32⟩ : BufTy).Contents (Elt Ideal))
  (x3 : (⟨Cert.ReferenceIdeal.S50000, .i32⟩ : BufTy).Contents (Elt Ideal))
  (x4 : (⟨Cert.ReferenceIdeal.S128x128, .f32⟩ : BufTy).Contents (Elt Ideal))
  (x5 : (⟨Cert.ReferenceIdeal.S128, .f32⟩ : BufTy).Contents (Elt Ideal))
  (x6 : (⟨Cert.ReferenceIdeal.S128x128, .f32⟩ : BufTy).Contents (Elt Ideal))
  (x7 : (⟨Cert.ReferenceIdeal.S128, .f32⟩ : BufTy).Contents (Elt Ideal))
  (x8 : (⟨Cert.ReferenceIdeal.S128x128, .f32⟩ : BufTy).Contents (Elt Ideal))
  (x9 : (⟨Cert.ReferenceIdeal.S128, .f32⟩ : BufTy).Contents (Elt Ideal))
  (x11 : (⟨Cert.ReferenceIdeal.S1, .f32⟩ : BufTy).Contents (Elt Ideal))

theorem host0
    (h1 : W (Proc.devRef .tc main_arg1) = x1) :
    StableHlo.after (hostOps0 (F := Ideal)) W (Proc.devRef .tc main_v1) = val_main_v1 (F := Ideal) x1
    ∧ StableHlo.after (hostOps0 (F := Ideal)) W (Proc.devRef .tc main_v3) = val_main_v3 (F := Ideal) x1
    ∧ StableHlo.after (hostOps0 (F := Ideal)) W (Proc.devRef .tc main_v4) = val_main_v4 (F := Ideal) := by
  refine ⟨?_, ?_, ?_⟩
  · dsimp only [hostOps0]
    after_results
    rw [h1]
    simp only [val_main_v1, val_main_v0]
    rfl
  · dsimp only [hostOps0]
    after_results
    rw [h1]
    simp only [val_main_v3, val_main_v2]
    rfl
  · dsimp only [hostOps0]
    after_results
    simp only [val_main_v4, val_main_cst]

/-- If the arrays a host stretch reads hold the reference's stages, the array it writes holds the reference's stage: both are one composed term of the same operations. -/
theorem host1_agg
    (h5 : W (Proc.devRef .tc main_v5) = val_main_v5 (F := Ideal) x0 x4)
    (h1 : W (Proc.devRef .tc main_v1) = val_main_v1 (F := Ideal) x1)
    (h3 : W (Proc.devRef .tc main_v3) = val_main_v3 (F := Ideal) x1)
    (h4 : W (Proc.devRef .tc main_v4) = val_main_v4 (F := Ideal)) :
    StableHlo.after (hostOps1 (F := Ideal)) W (Proc.devRef .tc main_v40) = val_main_v40 (F := Ideal) x0 x1 x4 := by
  dsimp only [hostOps1]
  after_results_simp
  rw [h5, h1, h3, h4]
  simp only [val_main_v40, val_main_v39, val_main_v38, val_main_cst_7, val_main_v37, val_main_v36, val_main_v35, val_main_v34, val_main_v33, val_main_v32, val_main_v31, val_main_v30, val_main_c_6, val_main_v29, val_main_v28, val_main_c_5, val_main_v27, val_main_v26, val_main_v25, val_main_v24, val_main_v23, val_main_v22, val_main_c_4, val_main_v21, val_main_v20, val_main_c_3, val_main_v19, val_main_v18, val_main_v17, val_main_v16, val_main_v15, val_main_v14, val_main_c_2, val_main_v13, val_main_v12, val_main_c, val_main_v11, val_main_v10, val_main_v9, val_main_cst_1, val_main_v8, val_main_v7, val_main_v6, val_main_cst_0]
  rfl

theorem host1_dinv
    (h3 : W (Proc.devRef .tc main_v3) = val_main_v3 (F := Ideal) x1)
    (h4 : W (Proc.devRef .tc main_v4) = val_main_v4 (F := Ideal)) :
    StableHlo.after (hostOps1 (F := Ideal)) W (Proc.devRef .tc main_v41) = Cert.Spec.col (n := 50000) (val_main_v11 (F := Ideal) x1) := by
  dsimp only [hostOps1]
  after_results_simp
  rw [h3, h4]
  refine (shapeCast_col _ _).trans ?_
  simp only [val_main_v11, val_main_v10, val_main_v9, val_main_cst_1, val_main_v8, val_main_v7, val_main_v6, val_main_cst_0]
  rfl

theorem host1_bias (hb : W (Proc.devRef .tc main_arg5) = x5) :
    StableHlo.after (hostOps1 (F := Ideal)) W (Proc.devRef .tc main_v42) = Cert.Spec.row (n := 128) x5 := by
  dsimp only [hostOps1]
  after_results_simp
  rw [hb]
  exact shapeCast_row x5 _

theorem host2_agg
    (hlin : W (Proc.devRef .tc main_v43_1) = val_main_v53 (F := Ideal) x0 x1 x4 x5 x6)
    (h1 : W (Proc.devRef .tc main_v1) = val_main_v1 (F := Ideal) x1)
    (h3 : W (Proc.devRef .tc main_v3) = val_main_v3 (F := Ideal) x1)
    (ha2 : W (Proc.devRef .tc main_arg2) = x2) :
    StableHlo.after (hostOps2 (F := Ideal)) W (Proc.devRef .tc main_v81) = val_main_v88 (F := Ideal) x0 x1 x2 x4 x5 x6 := by
  dsimp only [hostOps2]
  after_results_simp
  rw [hlin, h1, h3, ha2]
  simp only [val_main_v88, val_main_v87, val_main_v86, val_main_cst_17, val_main_v85, val_main_v84, val_main_v83, val_main_v82, val_main_v81, val_main_v80, val_main_v79, val_main_v78, val_main_c_16, val_main_v77, val_main_v76, val_main_c_15, val_main_v75, val_main_v74, val_main_v73, val_main_v72, val_main_v71, val_main_v70, val_main_c_14, val_main_v69, val_main_v68, val_main_c_13, val_main_v67, val_main_v66, val_main_v65, val_main_v64, val_main_v63, val_main_v62, val_main_c_12, val_main_v61, val_main_v60, val_main_c_11, val_main_v59, val_main_v58, val_main_v57, val_main_cst_10, val_main_v56, val_main_v55, val_main_v54, val_main_cst_9, val_main_v52, val_main_v51, val_main_v50, val_main_c_8]
  rfl

theorem host2_dinv
    (h3 : W (Proc.devRef .tc main_v3) = val_main_v3 (F := Ideal) x1)
    (ha2 : W (Proc.devRef .tc main_arg2) = x2) :
    StableHlo.after (hostOps2 (F := Ideal)) W (Proc.devRef .tc main_v82) = Cert.Spec.col (n := 50000) (val_main_v59 (F := Ideal) x1 x2) := by
  dsimp only [hostOps2]
  after_results_simp
  rw [h3, ha2]
  refine (shapeCast_col _ _).trans ?_
  simp only [val_main_v59, val_main_v58, val_main_v57, val_main_cst_10, val_main_v56, val_main_v55, val_main_v54, val_main_cst_9, val_main_v52, val_main_v51, val_main_v50, val_main_c_8]
  rfl

theorem host2_bias (hb : W (Proc.devRef .tc main_arg7) = x7) :
    StableHlo.after (hostOps2 (F := Ideal)) W (Proc.devRef .tc main_v83) = Cert.Spec.row (n := 128) x7 := by
  dsimp only [hostOps2]
  after_results_simp
  rw [hb]
  exact shapeCast_row x7 _

theorem host3_agg
    (hlin : W (Proc.devRef .tc main_v84_1) = val_main_v101 (F := Ideal) x0 x1 x2 x4 x5 x6 x7 x8)
    (h1 : W (Proc.devRef .tc main_v1) = val_main_v1 (F := Ideal) x1)
    (h3 : W (Proc.devRef .tc main_v3) = val_main_v3 (F := Ideal) x1)
    (ha2 : W (Proc.devRef .tc main_arg2) = x2) :
    StableHlo.after (hostOps3 (F := Ideal)) W (Proc.devRef .tc main_v122) = val_main_v136 (F := Ideal) x0 x1 x2 x4 x5 x6 x7 x8 := by
  dsimp only [hostOps3]
  after_results_simp
  rw [hlin, h1, h3, ha2]
  simp only [val_main_v136, val_main_v135, val_main_v134, val_main_cst_27, val_main_v133, val_main_v132, val_main_v131, val_main_v130, val_main_v129, val_main_v128, val_main_v127, val_main_v126, val_main_c_26, val_main_v125, val_main_v124, val_main_c_25, val_main_v123, val_main_v122, val_main_v121, val_main_v120, val_main_v119, val_main_v118, val_main_c_24, val_main_v117, val_main_v116, val_main_c_23, val_main_v115, val_main_v114, val_main_v113, val_main_v112, val_main_v111, val_main_v110, val_main_c_22, val_main_v109, val_main_v108, val_main_c_21, val_main_v107, val_main_v106, val_main_v105, val_main_cst_20, val_main_v104, val_main_v103, val_main_v102, val_main_cst_19, val_main_v100, val_main_v99, val_main_v98, val_main_c_18]
  rfl

theorem host3_dinv
    (h3 : W (Proc.devRef .tc main_v3) = val_main_v3 (F := Ideal) x1)
    (ha2 : W (Proc.devRef .tc main_arg2) = x2) :
    StableHlo.after (hostOps3 (F := Ideal)) W (Proc.devRef .tc main_v123) = Cert.Spec.col (n := 50000) (val_main_v107 (F := Ideal) x1 x2) := by
  dsimp only [hostOps3]
  after_results_simp
  rw [h3, ha2]
  refine (shapeCast_col _ _).trans ?_
  simp only [val_main_v107, val_main_v106, val_main_v105, val_main_cst_20, val_main_v104, val_main_v103, val_main_v102, val_main_cst_19, val_main_v100, val_main_v99, val_main_v98, val_main_c_18]
  rfl

theorem host3_bias (hb : W (Proc.devRef .tc main_arg9) = x9) :
    StableHlo.after (hostOps3 (F := Ideal)) W (Proc.devRef .tc main_v124) = Cert.Spec.row (n := 128) x9 := by
  dsimp only [hostOps3]
  after_results_simp
  rw [hb]
  exact shapeCast_row x9 _

theorem host4
    (ha3 : W (Proc.devRef .tc main_arg3) = x3) (ha11 : W (Proc.devRef .tc main_arg11) = x11) :
    StableHlo.after (hostOps4 (F := Ideal)) W (Proc.devRef .tc main_v126) = Cert.Spec.colW (n := 50000) x3
    ∧ StableHlo.after (hostOps4 (F := Ideal)) W (Proc.devRef .tc main_v127) = Cert.Spec.row (n := 1) x11 := by
  refine ⟨?_, ?_⟩
  · dsimp only [hostOps4]
    after_results
    rw [ha3]
    exact shapeCast_col x3 _
  · dsimp only [hostOps4]
    after_results
    rw [ha11]
    exact shapeCast_row x11 _

end Cert.KernelIdeal.Hand

end
-- ==== Proof.LibScatterSum.lean ====
import Idealize.ShloMosaic.PureOps.Ideal
import Idealize.ShloMosaic.Lib.ValueIdx
import Mathlib.Data.EReal.Operations
noncomputable section
namespace Idealize.ShloMosaic.ScatterSum
open Idealize.ShloMosaic Idealize.ShloMosaic.ValueIdx
open scoped BigOperators

abbrev rowScatterDims (N C n : Nat)
    (wf : ScatterDims.WF ⟨2, ![N, C]⟩ ⟨2, ![n, 1]⟩ ⟨2, ![n, C]⟩ [1] [0] [0] 1) :
    ScatterDims ⟨2, ![N, C]⟩ ⟨2, ![n, 1]⟩ ⟨2, ![n, C]⟩ where
  updateWindowDims := [1]
  insertedWindowDims := [0]
  scatterDimsToOperandDims := [0]
  indexVectorDim := 1
  wf := wf

section Row
variable {N C n w : Nat} (wf : ScatterDims.WF ⟨2, ![N, C]⟩ ⟨2, ![n, 1]⟩ ⟨2, ![n, C]⟩ [1] [0] [0] 1)

theorem rowScatter_start0 (idx : IVec ⟨2, ![n, 1]⟩ w) (e : Fin n) (q' : Fin C) :
    (rowScatterDims N C n wf).start (ix2 e q') idx 0 = (idx (ix2 e (0 : Fin 1))).toInt := by
  unfold ScatterDims.start
  rw [dif_pos (show (0 : Fin 2) ∈ (rowScatterDims N C n wf).scatterDimsToOperandDims from List.mem_singleton.mpr rfl)]

  have hsi : (rowScatterDims N C n wf).siIdx (ix2 e q')
      ⟨List.idxOf (0 : Fin 2) (rowScatterDims N C n wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem rowScatter_start1 (idx : IVec ⟨2, ![n, 1]⟩ w) (e : Fin n) (q' : Fin C) :
    (rowScatterDims N C n wf).start (ix2 e q') idx 1 = 0 := by
  rfl

theorem rowScatter_window0 (e : Fin n) (q' : Fin C) :
    (rowScatterDims N C n wf).window (ix2 e q') 0 = 0 := by
  rfl

theorem rowScatter_window1 (e : Fin n) (q' : Fin C) :
    (rowScatterDims N C n wf).window (ix2 e q') 1 = q'.val := by
  rfl

theorem rowScatter_resultIdx?_eq_some_iff (idx : IVec ⟨2, ![n, 1]⟩ w) (e : Fin n) (q' : Fin C) (j : Fin N) (q : Fin C) :
    (rowScatterDims N C n wf).resultIdx? (ix2 e q') idx = some (ix2 j q)
      ↔ (idx (ix2 e (0 : Fin 1))).toInt = (j.val : ℤ) ∧ q' = q := by
  unfold ScatterDims.resultIdx?
  split
  · rename_i h

    rw [Option.some.injEq]
    have h0 := (h 0).1
    rw [rowScatter_start0, rowScatter_window0] at h0
    constructor
    · intro hf
      have e0 := congrArg (fun f => (f 0).val) hf
      have e1 := congrArg (fun f => (f 1).val) hf
      simp only [rowScatter_start0, rowScatter_start1, rowScatter_window0, rowScatter_window1] at e0 e1
      have e0' : ((idx (ix2 e (0 : Fin 1))).toInt + ((0 : ℕ) : ℤ)).toNat = j.val := e0
      have e1' : ((0 : ℤ) + (q'.val : ℤ)).toNat = q.val := e1
      exact ⟨by omega, Fin.ext (by omega)⟩
    · rintro ⟨hj, rfl⟩
      funext a; refine Fin.ext ?_
      match a with
      | ⟨0, _⟩ =>
        show ((rowScatterDims N C n wf).start (ix2 e q') idx 0 + ((rowScatterDims N C n wf).window (ix2 e q') 0 : ℕ)).toNat = j.val
        rw [rowScatter_start0, rowScatter_window0]; omega
      | ⟨1, _⟩ =>
        show ((rowScatterDims N C n wf).start (ix2 e q') idx 1 + ((rowScatterDims N C n wf).window (ix2 e q') 1 : ℕ)).toNat = q'.val
        rw [rowScatter_start1, rowScatter_window1]; omega
  · rename_i h

    constructor
    · intro hf; exact absurd hf (by simp)
    · rintro ⟨hj, rfl⟩
      refine absurd (fun a => ?_) h
      match a with
      | ⟨0, _⟩ =>
        show 0 ≤ (rowScatterDims N C n wf).start (ix2 e q') idx 0 + ((rowScatterDims N C n wf).window (ix2 e q') 0 : ℕ)
          ∧ (rowScatterDims N C n wf).start (ix2 e q') idx 0 + ((rowScatterDims N C n wf).window (ix2 e q') 0 : ℕ) < (N : ℤ)
        rw [rowScatter_start0, rowScatter_window0]
        have := j.isLt; omega
      | ⟨1, _⟩ =>
        show 0 ≤ (rowScatterDims N C n wf).start (ix2 e q') idx 1 + ((rowScatterDims N C n wf).window (ix2 e q') 1 : ℕ)
          ∧ (rowScatterDims N C n wf).start (ix2 e q') idx 1 + ((rowScatterDims N C n wf).window (ix2 e q') 1 : ℕ) < (C : ℤ)
        rw [rowScatter_start1, rowScatter_window1]
        have := q'.isLt; omega

/-- A scatter-add of rows at (j, q): the operand's entry plus the updates' entries (e, q) over the rows e whose index word is j. -/
theorem rowScatterAdd_apply (x : (⟨2, ![N, C]⟩ : Shape).Idx → EReal) (idx : IVec ⟨2, ![n, 1]⟩ w)
    (upd : (⟨2, ![n, C]⟩ : Shape).Idx → EReal) (j : Fin N) (q : Fin C) :
    Ideal.hostScatterAdd (rowScatterDims N C n wf) x idx upd (ix2 j q)
      = x (ix2 j q) + ∑ e ∈ Finset.univ.filter (fun e : Fin n => (idx (ix2 e (0 : Fin 1))).toInt = (j.val : ℤ)),
          upd (ix2 e q) := by
  unfold Ideal.hostScatterAdd
  congr 1

  have key : ∀ u : (⟨2, ![n, C]⟩ : Shape).Idx,
      u ∈ Finset.univ.filter (fun u => (rowScatterDims N C n wf).resultIdx? u idx = some (ix2 j q)) →
      ∃ a : Fin n, u = ix2 a q ∧ (idx (ix2 a (0 : Fin 1))).toInt = (j.val : ℤ) := by
    intro u hu
    obtain ⟨a, b, rfl⟩ : ∃ (a : Fin n) (b : Fin C), u = ix2 a b := ⟨u 0, u 1, eq_ix2 u⟩
    have hu' := (rowScatter_resultIdx?_eq_some_iff wf idx a b j q).mp (Finset.mem_filter.mp hu).2
    exact ⟨a, by rw [hu'.2], hu'.1⟩
  refine Finset.sum_nbij' (fun u => (u 0 : Fin n)) (fun e => ix2 e q) ?_ ?_ ?_ ?_ ?_
  · intro u hu
    obtain ⟨a, rfl, ha⟩ := key u hu
    exact Finset.mem_filter.mpr ⟨Finset.mem_univ _, ha⟩
  · intro e he
    exact Finset.mem_filter.mpr ⟨Finset.mem_univ _,
      (rowScatter_resultIdx?_eq_some_iff wf idx e q j q).mpr ⟨(Finset.mem_filter.mp he).2, rfl⟩⟩
  · intro u hu
    obtain ⟨a, rfl, _⟩ := key u hu
    rfl
  · intro e _; rfl
  · intro u hu
    obtain ⟨a, rfl, _⟩ := key u hu
    rfl

theorem rowHostScatterAdd_apply {φ : FTy} (x : FVec Ideal ⟨2, ![N, C]⟩ φ) (idx : IVec ⟨2, ![n, 1]⟩ w)
    (upd : FVec Ideal ⟨2, ![n, C]⟩ φ) (j : Fin N) (q : Fin C) :
    Host.scatterAdd (rowScatterDims N C n wf) x idx upd (ix2 j q)
      = x (ix2 j q) + ∑ e ∈ Finset.univ.filter (fun e : Fin n => (idx (ix2 e (0 : Fin 1))).toInt = (j.val : ℤ)),
          upd (ix2 e q) :=
  rowScatterAdd_apply wf x idx upd j q
end Row

abbrev vecScatterDims (N n : Nat)
    (wf : ScatterDims.WF ⟨1, ![N]⟩ ⟨2, ![n, 1]⟩ ⟨1, ![n]⟩ [] [0] [0] 1) :
    ScatterDims ⟨1, ![N]⟩ ⟨2, ![n, 1]⟩ ⟨1, ![n]⟩ where
  updateWindowDims := []
  insertedWindowDims := [0]
  scatterDimsToOperandDims := [0]
  indexVectorDim := 1
  wf := wf

section Vec
variable {N n w : Nat} (wf : ScatterDims.WF ⟨1, ![N]⟩ ⟨2, ![n, 1]⟩ ⟨1, ![n]⟩ [] [0] [0] 1)

theorem vecScatter_start0 (idx : IVec ⟨2, ![n, 1]⟩ w) (e : Fin n) :
    (vecScatterDims N n wf).start (ix1 e) idx 0 = (idx (ix2 e (0 : Fin 1))).toInt := by
  unfold ScatterDims.start
  rw [dif_pos (show (0 : Fin 1) ∈ (vecScatterDims N n wf).scatterDimsToOperandDims from List.mem_singleton.mpr rfl)]

  have hsi : (vecScatterDims N n wf).siIdx (ix1 e)
      ⟨List.idxOf (0 : Fin 1) (vecScatterDims N n wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

theorem vecScatter_window0 (e : Fin n) : (vecScatterDims N n wf).window (ix1 e) 0 = 0 := by
  rfl

theorem vecScatter_resultIdx?_eq_some_iff (idx : IVec ⟨2, ![n, 1]⟩ w) (e : Fin n) (j : Fin N) :
    (vecScatterDims N n wf).resultIdx? (ix1 e) idx = some (ix1 j)
      ↔ (idx (ix2 e (0 : Fin 1))).toInt = (j.val : ℤ) := by
  unfold ScatterDims.resultIdx?
  split
  · rename_i h

    rw [Option.some.injEq]
    have h0 := (h 0).1
    rw [vecScatter_start0, vecScatter_window0] at h0
    constructor
    · intro hf
      have e0 := congrArg (fun f => (f 0).val) hf
      simp only [vecScatter_start0, vecScatter_window0] at e0
      have e0' : ((idx (ix2 e (0 : Fin 1))).toInt + ((0 : ℕ) : ℤ)).toNat = j.val := e0
      omega
    · intro hj
      funext a; refine Fin.ext ?_
      match a with
      | ⟨0, _⟩ =>
        show ((vecScatterDims N n wf).start (ix1 e) idx 0 + ((vecScatterDims N n wf).window (ix1 e) 0 : ℕ)).toNat = j.val
        rw [vecScatter_start0, vecScatter_window0]; omega
  · rename_i h

    constructor
    · intro hf; exact absurd hf (by simp)
    · intro hj
      refine absurd (fun a => ?_) h
      match a with
      | ⟨0, _⟩ =>
        show 0 ≤ (vecScatterDims N n wf).start (ix1 e) idx 0 + ((vecScatterDims N n wf).window (ix1 e) 0 : ℕ)
          ∧ (vecScatterDims N n wf).start (ix1 e) idx 0 + ((vecScatterDims N n wf).window (ix1 e) 0 : ℕ) < (N : ℤ)
        rw [vecScatter_start0, vecScatter_window0]
        have := j.isLt; omega

/-- The same for a rank-1 operand. -/
theorem vecScatterAdd_apply (x : (⟨1, ![N]⟩ : Shape).Idx → EReal) (idx : IVec ⟨2, ![n, 1]⟩ w)
    (upd : (⟨1, ![n]⟩ : Shape).Idx → EReal) (j : Fin N) :
    Ideal.hostScatterAdd (vecScatterDims N n wf) x idx upd (ix1 j)
      = x (ix1 j) + ∑ e ∈ Finset.univ.filter (fun e : Fin n => (idx (ix2 e (0 : Fin 1))).toInt = (j.val : ℤ)),
          upd (ix1 e) := by
  unfold Ideal.hostScatterAdd
  congr 1

  have key : ∀ u : (⟨1, ![n]⟩ : Shape).Idx,
      u ∈ Finset.univ.filter (fun u => (vecScatterDims N n wf).resultIdx? u idx = some (ix1 j)) →
      ∃ a : Fin n, u = ix1 a ∧ (idx (ix2 a (0 : Fin 1))).toInt = (j.val : ℤ) := by
    intro u hu
    obtain ⟨a, rfl⟩ : ∃ a : Fin n, u = ix1 a := ⟨u 0, eq_ix1 u⟩
    exact ⟨a, rfl, (vecScatter_resultIdx?_eq_some_iff wf idx a j).mp (Finset.mem_filter.mp hu).2⟩
  refine Finset.sum_nbij' (fun u => (u 0 : Fin n)) (fun e => ix1 e) ?_ ?_ ?_ ?_ ?_
  · intro u hu
    obtain ⟨a, rfl, ha⟩ := key u hu
    exact Finset.mem_filter.mpr ⟨Finset.mem_univ _, ha⟩
  · intro e he
    exact Finset.mem_filter.mpr ⟨Finset.mem_univ _,
      (vecScatter_resultIdx?_eq_some_iff wf idx e j).mpr (Finset.mem_filter.mp he).2⟩
  · intro u hu
    obtain ⟨a, rfl, _⟩ := key u hu
    rfl
  · intro e _; rfl
  · intro u hu
    obtain ⟨a, rfl, _⟩ := key u hu
    rfl

theorem vecHostScatterAdd_apply {φ : FTy} (x : FVec Ideal ⟨1, ![N]⟩ φ) (idx : IVec ⟨2, ![n, 1]⟩ w)
    (upd : FVec Ideal ⟨1, ![n]⟩ φ) (j : Fin N) :
    Host.scatterAdd (vecScatterDims N n wf) x idx upd (ix1 j)
      = x (ix1 j) + ∑ e ∈ Finset.univ.filter (fun e : Fin n => (idx (ix2 e (0 : Fin 1))).toInt = (j.val : ℤ)),
          upd (ix1 e) :=
  vecScatterAdd_apply wf x idx upd j
end Vec

end Idealize.ShloMosaic.ScatterSum
end
-- ==== Proof.Ref.Stages.lean ====
import proofs.«422729_j12214886989913_2_alg».proof.Proof.Gen.ReferenceIdeal.Read
import proofs.«422729_j12214886989913_2_alg».proof.Proof.Spec
import proofs.«422729_j12214886989913_2_alg».proof.Proof.LibScatterSum
import proofs.«422729_j12214886989913_2_alg».proof.Proof.LibOneHotSum

noncomputable section

namespace Cert.ReferenceIdeal.Hand

open Cert.ReferenceIdeal Cert.ReferenceIdeal.Gen Cert.ReferenceIdeal.Read
open Idealize.ShloMosaic Idealize.ShloMosaic.ValueIdx
open scoped BigOperators

variable (x0 : (⟨S50000x128, .f32⟩ : BufTy).Contents (Elt Ideal)) (x1 : (⟨S2x600000, .i32⟩ : BufTy).Contents (Elt Ideal)) (x2 : (⟨S600000, .i32⟩ : BufTy).Contents (Elt Ideal))
  (x3 : (⟨S50000, .i32⟩ : BufTy).Contents (Elt Ideal)) (x4 : (⟨S128x128, .f32⟩ : BufTy).Contents (Elt Ideal)) (x5 : (⟨S128, .f32⟩ : BufTy).Contents (Elt Ideal))
  (x6 : (⟨S128x128, .f32⟩ : BufTy).Contents (Elt Ideal)) (x7 : (⟨S128, .f32⟩ : BufTy).Contents (Elt Ideal)) (x8 : (⟨S128x128, .f32⟩ : BufTy).Contents (Elt Ideal))
  (x9 : (⟨S128, .f32⟩ : BufTy).Contents (Elt Ideal)) (x10 : (⟨S128x1, .f32⟩ : BufTy).Contents (Elt Ideal)) (x11 : (⟨S1, .f32⟩ : BufTy).Contents (Elt Ideal))

/-- The reference's dense layers are the dense transform of their operands, read entry by entry. -/
theorem lin1_eq :
    Read.val_main_v5 (F := Ideal) x0 x4 = Cert.Spec.lin x0 x4 := by
  funext i
  obtain ⟨p, q, rfl⟩ : ∃ (p : Fin 50000) (q : Fin 128), i = ix2 p q := ⟨i 0, i 1, eq_ix2 i⟩
  rw [val_main_v5_apply, Cert.Spec.lin_ix2]
  refine Finset.sum_congr rfl fun k _ => ?_
  have el : lidx_main_v5 (ix2 p q) k = ix2 p k :=
    funext fun a => Fin.ext (by match a with | ⟨0, _⟩ => rfl | ⟨1, _⟩ => rfl)
  have er : ridx_main_v5 (ix2 p q) k = ix2 k q :=
    funext fun a => Fin.ext (by match a with | ⟨0, _⟩ => rfl | ⟨1, _⟩ => rfl)
  rw [el, er]

/-- The reference's combine-and-rectify stages are `relu ∘ comb` of their operands. -/
theorem relu1_eq :
    Read.val_main_v49 (F := Ideal) x0 x1 x4 x5
      = Cert.Spec.relu (Cert.Spec.comb (Read.val_main_v40 x0 x1 x4) (Read.val_main_v5 x0 x4) (Read.val_main_v11 x1) x5) := by
  funext i
  obtain ⟨p, q, rfl⟩ : ∃ (p : Fin 50000) (q : Fin 128), i = ix2 p q := ⟨i 0, i 1, eq_ix2 i⟩
  have e1 : idx_main_v42 (idx_main_v43 (ix2 p q)) = ix1 p :=
    funext fun a => Fin.ext (by match a with | ⟨0, _⟩ => rfl)
  have e2 : idx_main_v46 (idx_main_v47 (ix2 p q)) = ix1 q :=
    funext fun a => Fin.ext (by match a with | ⟨0, _⟩ => rfl)
  rw [val_main_v49_apply, val_main_v48_apply, val_main_v45_apply, val_main_v44_apply, val_main_v43_apply, val_main_v42_apply, val_main_v41_apply, val_main_v47_apply, val_main_v46_apply, val_main_call0_v0_apply, val_main_call0_cst_apply]
  simp only [e1, e2, Ideal.addf_def, Ideal.mulf_def, Ideal.maximumf_def, Ideal.ofBits_def, Ideal.ofBits_zero_f32]
  rfl

theorem lin2_eq :
    Read.val_main_v53 (F := Ideal) x0 x1 x4 x5 x6 = Cert.Spec.lin (Read.val_main_v49 x0 x1 x4 x5) x6 := by
  funext i
  obtain ⟨p, q, rfl⟩ : ∃ (p : Fin 50000) (q : Fin 128), i = ix2 p q := ⟨i 0, i 1, eq_ix2 i⟩
  rw [val_main_v53_apply, Cert.Spec.lin_ix2]
  refine Finset.sum_congr rfl fun k _ => ?_
  have el : lidx_main_v53 (ix2 p q) k = ix2 p k :=
    funext fun a => Fin.ext (by match a with | ⟨0, _⟩ => rfl | ⟨1, _⟩ => rfl)
  have er : ridx_main_v53 (ix2 p q) k = ix2 k q :=
    funext fun a => Fin.ext (by match a with | ⟨0, _⟩ => rfl | ⟨1, _⟩ => rfl)
  rw [el, er]

theorem relu2_eq :
    Read.val_main_v97 (F := Ideal) x0 x1 x2 x4 x5 x6 x7
      = Cert.Spec.relu (Cert.Spec.comb (Read.val_main_v88 x0 x1 x2 x4 x5 x6) (Read.val_main_v53 x0 x1 x4 x5 x6) (Read.val_main_v59 x1 x2) x7) := by
  funext i
  obtain ⟨p, q, rfl⟩ : ∃ (p : Fin 50000) (q : Fin 128), i = ix2 p q := ⟨i 0, i 1, eq_ix2 i⟩
  have e1 : idx_main_v90 (idx_main_v91 (ix2 p q)) = ix1 p :=
    funext fun a => Fin.ext (by match a with | ⟨0, _⟩ => rfl)
  have e2 : idx_main_v94 (idx_main_v95 (ix2 p q)) = ix1 q :=
    funext fun a => Fin.ext (by match a with | ⟨0, _⟩ => rfl)
  rw [val_main_v97_apply, val_main_v96_apply, val_main_v93_apply, val_main_v92_apply, val_main_v91_apply, val_main_v90_apply, val_main_v89_apply, val_main_v95_apply, val_main_v94_apply, val_main_call1_v0_apply, val_main_call1_cst_apply]
  simp only [e1, e2, Ideal.addf_def, Ideal.mulf_def, Ideal.maximumf_def, Ideal.ofBits_def, Ideal.ofBits_zero_f32]
  rfl

theorem lin3_eq :
    Read.val_main_v101 (F := Ideal) x0 x1 x2 x4 x5 x6 x7 x8 = Cert.Spec.lin (Read.val_main_v97 x0 x1 x2 x4 x5 x6 x7) x8 := by
  funext i
  obtain ⟨p, q, rfl⟩ : ∃ (p : Fin 50000) (q : Fin 128), i = ix2 p q := ⟨i 0, i 1, eq_ix2 i⟩
  rw [val_main_v101_apply, Cert.Spec.lin_ix2]
  refine Finset.sum_congr rfl fun k _ => ?_
  have el : lidx_main_v101 (ix2 p q) k = ix2 p k :=
    funext fun a => Fin.ext (by match a with | ⟨0, _⟩ => rfl | ⟨1, _⟩ => rfl)
  have er : ridx_main_v101 (ix2 p q) k = ix2 k q :=
    funext fun a => Fin.ext (by match a with | ⟨0, _⟩ => rfl | ⟨1, _⟩ => rfl)
  rw [el, er]

theorem comb3_eq :
    Read.val_main_v144 (F := Ideal) x0 x1 x2 x4 x5 x6 x7 x8 x9
      = Cert.Spec.comb (Read.val_main_v136 x0 x1 x2 x4 x5 x6 x7 x8) (Read.val_main_v101 x0 x1 x2 x4 x5 x6 x7 x8) (Read.val_main_v107 x1 x2) x9 := by
  funext i
  obtain ⟨p, q, rfl⟩ : ∃ (p : Fin 50000) (q : Fin 128), i = ix2 p q := ⟨i 0, i 1, eq_ix2 i⟩
  have e1 : idx_main_v138 (idx_main_v139 (ix2 p q)) = ix1 p :=
    funext fun a => Fin.ext (by match a with | ⟨0, _⟩ => rfl)
  have e2 : idx_main_v142 (idx_main_v143 (ix2 p q)) = ix1 q :=
    funext fun a => Fin.ext (by match a with | ⟨0, _⟩ => rfl)
  rw [val_main_v144_apply, val_main_v141_apply, val_main_v140_apply, val_main_v139_apply, val_main_v138_apply, val_main_v137_apply, val_main_v143_apply, val_main_v142_apply]
  simp only [e1, e2, Ideal.addf_def, Ideal.mulf_def]
  rfl

theorem ofBits_one_f32 : Ideal.ofBits .f32 0x3F800000#32 = 1 := by
  simp [Ideal.ofBits, Ideal.ieee, -EReal.coe_mul]; norm_num

theorem sumDims_eq : scatter_S64x128_S50000x1_S50000x128_1_0_0_1
    = ScatterSum.rowScatterDims 64 128 50000 scatter_S64x128_S50000x1_S50000x128_1_0_0_1_wf := rfl
theorem cntDims_eq : scatter_S64_S50000x1_S50000_n_0_0_1
    = ScatterSum.vecScatterDims 64 50000 scatter_S64_S50000x1_S50000_n_0_0_1_wf := rfl

theorem col146 (e : Fin 50000) : idx_main_v146 (ix2 e (0 : Fin 1)) = ix1 e :=
  funext fun a => Fin.ext (by match a with | ⟨0, _⟩ => rfl)
theorem col150 (e : Fin 50000) : idx_main_v150 (ix2 e (0 : Fin 1)) = ix1 e :=
  funext fun a => Fin.ext (by match a with | ⟨0, _⟩ => rfl)

theorem word_iff (w : BitVec 32) (g : Fin 64) : w.toInt = (g.val : ℤ) ↔ w = BitVec.ofNat 32 g.val :=
  (OneHotSum.eq_ofNat_iff_toInt w g.val (by have := g.isLt; omega)).symm

/-- The scatter-add of ones by graph word counts each graph's nodes, -/
theorem cnt_eq (g : Fin 64) : Read.val_main_v151 (F := Ideal) x3 (ix1 g) = Cert.Spec.cntBy x3 g := by
  unfold val_main_v151
  rw [cntDims_eq, ScatterSum.vecHostScatterAdd_apply, val_main_v149_apply, val_main_cst_30_apply, Ideal.ofBits_def,
    Ideal.ofBits_zero_f32, zero_add, Finset.sum_filter]
  unfold Cert.Spec.cntBy
  refine Finset.sum_congr rfl fun e _ => ?_
  rw [val_main_v148_apply, val_main_cst_29_apply, Ideal.ofBits_def, ofBits_one_f32, val_main_v150_apply, col150]
  exact if_congr (word_iff _ g) rfl rfl

/-- and the scatter-add of the node rows sums each graph's rows. -/
theorem sums_eq (g : Fin 64) (d : Fin 128) :
    Read.val_main_v147 (F := Ideal) x0 x1 x2 x3 x4 x5 x6 x7 x8 x9 (ix2 g d)
      = Cert.Spec.sumBy (Read.val_main_v144 x0 x1 x2 x4 x5 x6 x7 x8 x9) x3 g d := by
  unfold val_main_v147
  generalize val_main_v144 (F := Ideal) x0 x1 x2 x4 x5 x6 x7 x8 x9 = h
  rw [sumDims_eq, ScatterSum.rowHostScatterAdd_apply, val_main_v145_apply, val_main_cst_28_apply, Ideal.ofBits_def,
    Ideal.ofBits_zero_f32, zero_add, Finset.sum_filter]
  unfold Cert.Spec.sumBy
  refine Finset.sum_congr rfl fun e _ => ?_
  rw [val_main_v146_apply, col146]
  exact if_congr (word_iff _ g) rfl rfl

/-- The reference's result is the pool of its last layer. -/
theorem tail_eq :
    Read.val_main_v159 (F := Ideal) x0 x1 x2 x3 x4 x5 x6 x7 x8 x9 x10 x11
      = Cert.Spec.pool (Read.val_main_v144 x0 x1 x2 x4 x5 x6 x7 x8 x9) x3 x10 x11 := by
  funext i
  obtain ⟨g, z, rfl⟩ : ∃ (g : Fin 64) (z : Fin 1), i = ix2 g z := ⟨i 0, i 1, eq_ix2 i⟩
  obtain rfl : z = 0 := Subsingleton.elim _ _
  have eb : idx_main_v157 (idx_main_v158 (ix2 g (0 : Fin 1))) = ix1 (0 : Fin 1) :=
    funext fun a => Fin.ext (by match a with | ⟨0, _⟩ => rfl)
  rw [val_main_v159_apply, val_main_v156_apply, val_main_v158_apply, val_main_v157_apply, eb, Cert.Spec.pool_ix2,
    Ideal.addf_def]
  unfold Cert.Spec.poolAt
  refine congrArg (fun s : EReal => s + x11 (ix1 (0 : Fin 1))) (Finset.sum_congr rfl fun d _ => ?_)
  have el : lidx_main_v156 (ix2 g (0 : Fin 1)) d = ix2 g d :=
    funext fun a => Fin.ext (by match a with | ⟨0, _⟩ => rfl | ⟨1, _⟩ => rfl)
  have er : ridx_main_v156 (ix2 g (0 : Fin 1)) d = ix2 d (0 : Fin 1) :=
    funext fun a => Fin.ext (by match a with | ⟨0, _⟩ => rfl | ⟨1, _⟩ => rfl)
  have ec : idx_main_v153 (idx_main_v154 (ix2 g d)) = ix1 g :=
    funext fun a => Fin.ext (by match a with | ⟨0, _⟩ => rfl)
  rw [el, er, val_main_v155_apply, sums_eq, val_main_v154_apply, val_main_v153_apply, ec, val_main_v152_apply,
    val_main_call2_v1_apply, val_main_call2_v0_apply, val_main_cst_31_apply, cnt_eq, Ideal.hostDivf_def,
    Ideal.maximumf_def, Ideal.ofBits_def, ofBits_one_f32, max_comm]

end Cert.ReferenceIdeal.Hand

end
-- ==== Proof.Val.Bridge.lean ====
import proofs.«422729_j12214886989913_2_alg».proof.Proof.KI.Run
import proofs.«422729_j12214886989913_2_alg».proof.Proof.Val.Reg0
import proofs.«422729_j12214886989913_2_alg».proof.Proof.Val.Reg1
import proofs.«422729_j12214886989913_2_alg».proof.Proof.Val.Reg2
import proofs.«422729_j12214886989913_2_alg».proof.Proof.Val.Reg3
import proofs.«422729_j12214886989913_2_alg».proof.Proof.Val.Reg4
import proofs.«422729_j12214886989913_2_alg».proof.Proof.Val.Host
import proofs.«422729_j12214886989913_2_alg».proof.Proof.Ref.Stages

set_option maxRecDepth 16384

noncomputable section

namespace Cert.KernelIdeal.Hand

open Cert.KernelIdeal Cert.KernelIdeal.Gen
open Idealize.ShloMosaic Idealize.ShloMosaic.TcCoe
open Idealize.SL Idealize.SL.Sem
open Cert.ReferenceIdeal.Read

variable (m : (ℓ : Loc nD τ sig) → Buf (Elt Ideal) ℓ) (c : Dev nD)

/-- A buffer a host stretch does not write is unchanged by it. -/
theorem W1_of (r : Ref sig .tc) (h : r ∉ hostOps0_W) : W1 m c (Proc.devRef .tc r) = W0 m c (Proc.devRef .tc r) :=
  StableHlo.after_of_writes_sub hostOps0 _ hostOps0_writes h
theorem W3_of (r : Ref sig .tc) (h : r ∉ hostOps1_W) : W3 m c (Proc.devRef .tc r) = W2 m c (Proc.devRef .tc r) :=
  StableHlo.after_of_writes_sub hostOps1 _ hostOps1_writes h
theorem W5_of (r : Ref sig .tc) (h : r ∉ hostOps2_W) : W5 m c (Proc.devRef .tc r) = W4 m c (Proc.devRef .tc r) :=
  StableHlo.after_of_writes_sub hostOps2 _ hostOps2_writes h
theorem W7_of (r : Ref sig .tc) (h : r ∉ hostOps3_W) : W7 m c (Proc.devRef .tc r) = W6 m c (Proc.devRef .tc r) :=
  StableHlo.after_of_writes_sub hostOps3 _ hostOps3_writes h
theorem W9_of (r : Ref sig .tc) (h : r ∉ hostOps4_W) : W9 m c (Proc.devRef .tc r) = W8 m c (Proc.devRef .tc r) :=
  StableHlo.after_of_writes_sub hostOps4 _ hostOps4_writes h

abbrev a0 : (⟨Cert.ReferenceIdeal.S50000x128, .f32⟩ : BufTy).Contents (Elt Ideal) := m ((c.tc : Thread nD τ).loc main_arg0)
abbrev a1 : (⟨Cert.ReferenceIdeal.S2x600000, .i32⟩ : BufTy).Contents (Elt Ideal) := m ((c.tc : Thread nD τ).loc main_arg1)
abbrev a2 : (⟨Cert.ReferenceIdeal.S600000, .i32⟩ : BufTy).Contents (Elt Ideal) := m ((c.tc : Thread nD τ).loc main_arg2)
abbrev a3 : (⟨Cert.ReferenceIdeal.S50000, .i32⟩ : BufTy).Contents (Elt Ideal) := m ((c.tc : Thread nD τ).loc main_arg3)
abbrev a4 : (⟨Cert.ReferenceIdeal.S128x128, .f32⟩ : BufTy).Contents (Elt Ideal) := m ((c.tc : Thread nD τ).loc main_arg4)
abbrev a5 : (⟨Cert.ReferenceIdeal.S128, .f32⟩ : BufTy).Contents (Elt Ideal) := m ((c.tc : Thread nD τ).loc main_arg5)
abbrev a6 : (⟨Cert.ReferenceIdeal.S128x128, .f32⟩ : BufTy).Contents (Elt Ideal) := m ((c.tc : Thread nD τ).loc main_arg6)
abbrev a7 : (⟨Cert.ReferenceIdeal.S128, .f32⟩ : BufTy).Contents (Elt Ideal) := m ((c.tc : Thread nD τ).loc main_arg7)
abbrev a8 : (⟨Cert.ReferenceIdeal.S128x128, .f32⟩ : BufTy).Contents (Elt Ideal) := m ((c.tc : Thread nD τ).loc main_arg8)
abbrev a9 : (⟨Cert.ReferenceIdeal.S128, .f32⟩ : BufTy).Contents (Elt Ideal) := m ((c.tc : Thread nD τ).loc main_arg9)
abbrev a10 : (⟨Cert.ReferenceIdeal.S128x1, .f32⟩ : BufTy).Contents (Elt Ideal) := m ((c.tc : Thread nD τ).loc main_arg10)
abbrev a11 : (⟨Cert.ReferenceIdeal.S1, .f32⟩ : BufTy).Contents (Elt Ideal) := m ((c.tc : Thread nD τ).loc main_arg11)

/-- Boundary by boundary, every array a later region reads holds the reference's stage of the launch arguments. -/
theorem at2_lin1 : W2 m c (Proc.devRef .tc main_v5) = val_main_v5 (a0 m c) (a4 m c) := by
  refine (W2_arr m c 2).trans ((final0_2 (V1 m) c).trans ?_)
  rw [show V1 m c (Pipeline.arrRef spec0 0) = a0 m c from W1_of m c main_arg0 (by decide),
    show V1 m c (Pipeline.arrRef spec0 1) = a4 m c from W1_of m c main_arg4 (by decide)]
  exact (Cert.ReferenceIdeal.Hand.lin1_eq (a0 m c) (a4 m c)).symm

theorem at1_edges : W1 m c (Proc.devRef .tc main_v1) = val_main_v1 (a1 m c) ∧ W1 m c (Proc.devRef .tc main_v3) = val_main_v3 (a1 m c)
    ∧ W1 m c (Proc.devRef .tc main_v4) = val_main_v4 :=
  host0 (W0 m c) (a1 m c) rfl
theorem at2_v1 : W2 m c (Proc.devRef .tc main_v1) = val_main_v1 (a1 m c) := (W2_keep m c main_v1 (by decide)).trans (at1_edges m c).1
theorem at2_v3 : W2 m c (Proc.devRef .tc main_v3) = val_main_v3 (a1 m c) := (W2_keep m c main_v3 (by decide)).trans (at1_edges m c).2.1
theorem at2_v4 : W2 m c (Proc.devRef .tc main_v4) = val_main_v4 := (W2_keep m c main_v4 (by decide)).trans (at1_edges m c).2.2
theorem at4_v1 : W4 m c (Proc.devRef .tc main_v1) = val_main_v1 (a1 m c) := (W4_keep m c main_v1 (by decide)).trans ((W3_of m c main_v1 (by decide)).trans (at2_v1 m c))
theorem at4_v3 : W4 m c (Proc.devRef .tc main_v3) = val_main_v3 (a1 m c) := (W4_keep m c main_v3 (by decide)).trans ((W3_of m c main_v3 (by decide)).trans (at2_v3 m c))
theorem at6_v1 : W6 m c (Proc.devRef .tc main_v1) = val_main_v1 (a1 m c) := (W6_keep m c main_v1 (by decide)).trans ((W5_of m c main_v1 (by decide)).trans (at4_v1 m c))
theorem at6_v3 : W6 m c (Proc.devRef .tc main_v3) = val_main_v3 (a1 m c) := (W6_keep m c main_v3 (by decide)).trans ((W5_of m c main_v3 (by decide)).trans (at4_v3 m c))

set_option maxHeartbeats 4000000 in
theorem at3_layer1 : W3 m c (Proc.devRef .tc main_v40) = val_main_v40 (a0 m c) (a1 m c) (a4 m c)
    ∧ W3 m c (Proc.devRef .tc main_v41) = Cert.Spec.col (val_main_v11 (a1 m c))
    ∧ W3 m c (Proc.devRef .tc main_v42) = Cert.Spec.row (a5 m c) :=
  ⟨host1_agg (W2 m c) (a0 m c) (a1 m c) (a4 m c) (at2_lin1 m c) (at2_v1 m c) (at2_v3 m c) (at2_v4 m c),
    host1_dinv (W2 m c) (a1 m c) (at2_v3 m c) (at2_v4 m c), host1_bias (W2 m c) (a5 m c) (W2_kept m c main_arg5 (by decide))⟩

set_option maxHeartbeats 4000000 in
theorem at4_lin2 : W4 m c (Proc.devRef .tc main_v43_1) = val_main_v53 (a0 m c) (a1 m c) (a4 m c) (a5 m c) (a6 m c) := by
  refine (W4_arr m c 6).trans ((final1_6 (V3 m) c).trans ?_)
  rw [show V3 m c (Pipeline.arrRef spec1 0) = val_main_v40 (a0 m c) (a1 m c) (a4 m c) from (at3_layer1 m c).1,
    show V3 m c (Pipeline.arrRef spec1 1) = val_main_v5 (a0 m c) (a4 m c) from (W3_of m c main_v5 (by decide)).trans (at2_lin1 m c),
    show V3 m c (Pipeline.arrRef spec1 2) = Cert.Spec.col (val_main_v11 (a1 m c)) from (at3_layer1 m c).2.1,
    show V3 m c (Pipeline.arrRef spec1 3) = Cert.Spec.row (a5 m c) from (at3_layer1 m c).2.2,
    show V3 m c (Pipeline.arrRef spec1 4) = a6 m c from W3_kept m c main_arg6 (by decide),
    Cert.Spec.comb2_col_row, ← Cert.ReferenceIdeal.Hand.relu1_eq (a0 m c) (a1 m c) (a4 m c) (a5 m c)]
  exact (Cert.ReferenceIdeal.Hand.lin2_eq (a0 m c) (a1 m c) (a4 m c) (a5 m c) (a6 m c)).symm

set_option maxHeartbeats 4000000 in
theorem at5_layer2 : W5 m c (Proc.devRef .tc main_v81) = val_main_v88 (a0 m c) (a1 m c) (a2 m c) (a4 m c) (a5 m c) (a6 m c)
    ∧ W5 m c (Proc.devRef .tc main_v82) = Cert.Spec.col (val_main_v59 (a1 m c) (a2 m c))
    ∧ W5 m c (Proc.devRef .tc main_v83) = Cert.Spec.row (a7 m c) :=
  ⟨host2_agg (W4 m c) (a0 m c) (a1 m c) (a2 m c) (a4 m c) (a5 m c) (a6 m c) (at4_lin2 m c) (at4_v1 m c) (at4_v3 m c) (W4_kept m c main_arg2 (by decide)),
    host2_dinv (W4 m c) (a1 m c) (a2 m c) (at4_v3 m c) (W4_kept m c main_arg2 (by decide)), host2_bias (W4 m c) (a7 m c) (W4_kept m c main_arg7 (by decide))⟩

set_option maxHeartbeats 4000000 in
theorem at6_lin3 : W6 m c (Proc.devRef .tc main_v84_1) = val_main_v101 (a0 m c) (a1 m c) (a2 m c) (a4 m c) (a5 m c) (a6 m c) (a7 m c) (a8 m c) := by
  refine (W6_arr m c 6).trans ((final2_6 (V5 m) c).trans ?_)
  rw [show V5 m c (Pipeline.arrRef spec2 0) = val_main_v88 (a0 m c) (a1 m c) (a2 m c) (a4 m c) (a5 m c) (a6 m c) from (at5_layer2 m c).1,
    show V5 m c (Pipeline.arrRef spec2 1) = val_main_v53 (a0 m c) (a1 m c) (a4 m c) (a5 m c) (a6 m c) from (W5_of m c main_v43_1 (by decide)).trans (at4_lin2 m c),
    show V5 m c (Pipeline.arrRef spec2 2) = Cert.Spec.col (val_main_v59 (a1 m c) (a2 m c)) from (at5_layer2 m c).2.1,
    show V5 m c (Pipeline.arrRef spec2 3) = Cert.Spec.row (a7 m c) from (at5_layer2 m c).2.2,
    show V5 m c (Pipeline.arrRef spec2 4) = a8 m c from W5_kept m c main_arg8 (by decide),
    Cert.Spec.comb2_col_row, ← Cert.ReferenceIdeal.Hand.relu2_eq (a0 m c) (a1 m c) (a2 m c) (a4 m c) (a5 m c) (a6 m c) (a7 m c)]
  exact (Cert.ReferenceIdeal.Hand.lin3_eq (a0 m c) (a1 m c) (a2 m c) (a4 m c) (a5 m c) (a6 m c) (a7 m c) (a8 m c)).symm

set_option maxHeartbeats 4000000 in
theorem at7_layer3 : W7 m c (Proc.devRef .tc main_v122) = val_main_v136 (a0 m c) (a1 m c) (a2 m c) (a4 m c) (a5 m c) (a6 m c) (a7 m c) (a8 m c)
    ∧ W7 m c (Proc.devRef .tc main_v123) = Cert.Spec.col (val_main_v107 (a1 m c) (a2 m c))
    ∧ W7 m c (Proc.devRef .tc main_v124) = Cert.Spec.row (a9 m c) :=
  ⟨host3_agg (W6 m c) (a0 m c) (a1 m c) (a2 m c) (a4 m c) (a5 m c) (a6 m c) (a7 m c) (a8 m c) (at6_lin3 m c) (at6_v1 m c) (at6_v3 m c) (W6_kept m c main_arg2 (by decide)),
    host3_dinv (W6 m c) (a1 m c) (a2 m c) (at6_v3 m c) (W6_kept m c main_arg2 (by decide)), host3_bias (W6 m c) (a9 m c) (W6_kept m c main_arg9 (by decide))⟩

set_option maxHeartbeats 4000000 in
theorem at8_h3 : W8 m c (Proc.devRef .tc main_v125) = val_main_v144 (a0 m c) (a1 m c) (a2 m c) (a4 m c) (a5 m c) (a6 m c) (a7 m c) (a8 m c) (a9 m c) := by
  refine (W8_arr m c 4).trans ((final3_4 (V7 m) c).trans ?_)
  rw [show V7 m c (Pipeline.arrRef spec3 0) = val_main_v136 (a0 m c) (a1 m c) (a2 m c) (a4 m c) (a5 m c) (a6 m c) (a7 m c) (a8 m c) from (at7_layer3 m c).1,
    show V7 m c (Pipeline.arrRef spec3 1) = val_main_v101 (a0 m c) (a1 m c) (a2 m c) (a4 m c) (a5 m c) (a6 m c) (a7 m c) (a8 m c) from (W7_of m c main_v84_1 (by decide)).trans (at6_lin3 m c),
    show V7 m c (Pipeline.arrRef spec3 2) = Cert.Spec.col (val_main_v107 (a1 m c) (a2 m c)) from (at7_layer3 m c).2.1,
    show V7 m c (Pipeline.arrRef spec3 3) = Cert.Spec.row (a9 m c) from (at7_layer3 m c).2.2,
    Cert.Spec.comb2_col_row]
  exact (Cert.ReferenceIdeal.Hand.comb3_eq (a0 m c) (a1 m c) (a2 m c) (a4 m c) (a5 m c) (a6 m c) (a7 m c) (a8 m c) (a9 m c)).symm

set_option maxHeartbeats 4000000 in
theorem at9_tail : W9 m c (Proc.devRef .tc main_v126) = Cert.Spec.colW (a3 m c) ∧ W9 m c (Proc.devRef .tc main_v127) = Cert.Spec.row (a11 m c) :=
  host4 (W8 m c) (a3 m c) (a11 m c)
    (W8_kept m c main_arg3 (by decide))
    (W8_kept m c main_arg11 (by decide))

set_option maxHeartbeats 4000000 in
/-- The kernel program's result array is the reference's result stage of the same arguments. -/
theorem value : (dat4 (F := Ideal) (V9 m) c).arrAt 4 cfg4.N
    = val_main_v159 (a0 m c) (a1 m c) (a2 m c) (a3 m c) (a4 m c) (a5 m c) (a6 m c) (a7 m c) (a8 m c) (a9 m c) (a10 m c) (a11 m c) := by
  refine (final4_4 (V9 m) c).trans ?_
  rw [show V9 m c (Pipeline.arrRef spec4 0) = val_main_v144 (a0 m c) (a1 m c) (a2 m c) (a4 m c) (a5 m c) (a6 m c) (a7 m c) (a8 m c) (a9 m c) from (W9_of m c main_v125 (by decide)).trans (at8_h3 m c),
    show V9 m c (Pipeline.arrRef spec4 1) = Cert.Spec.colW (a3 m c) from (at9_tail m c).1,
    show V9 m c (Pipeline.arrRef spec4 2) = a10 m c from W9_kept m c main_arg10 (by decide),
    show V9 m c (Pipeline.arrRef spec4 3) = Cert.Spec.row (a11 m c) from (at9_tail m c).2,
    Cert.Spec.pool2_col_row]
  exact (Cert.ReferenceIdeal.Hand.tail_eq (a0 m c) (a1 m c) (a2 m c) (a3 m c) (a4 m c) (a5 m c) (a6 m c) (a7 m c) (a8 m c) (a9 m c) (a10 m c) (a11 m c)).symm

end Cert.KernelIdeal.Hand

end
-- ==== Proof.lean ====
import proofs.«422729_j12214886989913_2_alg».proof.Defs
import proofs.«422729_j12214886989913_2_alg».proof.Proof.Gen.Kernel
import proofs.«422729_j12214886989913_2_alg».proof.Proof.Gen.KernelIdeal
import proofs.«422729_j12214886989913_2_alg».proof.Proof.Gen.ReferenceIdeal
import proofs.«422729_j12214886989913_2_alg».proof.Proof.Gen.ReferenceIdeal.Run
import proofs.«422729_j12214886989913_2_alg».proof.Proof.Gen.ReferenceIdeal.Read
import proofs.«422729_j12214886989913_2_alg».proof.Proof.Gen.Pre_finite_inputs
import proofs.«422729_j12214886989913_2_alg».proof.Proof.K.Run
import proofs.«422729_j12214886989913_2_alg».proof.Proof.KI.Run
import proofs.«422729_j12214886989913_2_alg».proof.Proof.Val.Bridge
import Idealize.ShloMosaic.Adequacy
import Idealize.ShloMosaic.Init

noncomputable section

namespace Cert.Proof

open Idealize.ShloMosaic Idealize.SL.Sem
open Cert.KernelIdeal.Hand (a0 a1 a2 a3 a4 a5 a6 a7 a8 a9 a10 a11)

/-- The frames are the runs with the results dropped. -/
theorem frame_k : Cert.frame_Kernel := fun m ρ _ =>
  (θ_run Cert.Kernel.defs _ _).mono (fun _ h c => (h c).2) (Cert.Kernel.Hand.run m ρ)

theorem frame_ki : Cert.frame_KernelIdeal := fun m ρ _ =>
  (θ_run Cert.KernelIdeal.defs _ _).mono (fun _ h c => (h c).2) (Cert.KernelIdeal.Hand.run m ρ)

theorem frame_ri : Cert.frame_ReferenceIdeal := fun m ρ _ =>
  (θ_run Cert.ReferenceIdeal.defs _ _).mono (fun _ h c => (h c).2) (Cert.ReferenceIdeal.Value.run (F := Ideal) m ρ)

/-- Both programs end with the reference's result stage of the (agreeing) arguments. -/
theorem algebraic : Cert.algebraic_KernelIdeal_ReferenceIdeal := by
  intro m ρ m' ρ' _ hagree
  refine ⟨fun c => Cert.ReferenceIdeal.Read.val_main_v159 (F := Ideal) (a0 m c) (a1 m c) (a2 m c) (a3 m c) (a4 m c) (a5 m c)
      (a6 m c) (a7 m c) (a8 m c) (a9 m c) (a10 m c) (a11 m c), ?_, ?_⟩
  · exact (θ_run Cert.KernelIdeal.defs _ _).mono (fun _ h c => ⟨(h c).1.trans (Cert.KernelIdeal.Hand.value m c), (h c).2⟩)
      (Cert.KernelIdeal.Hand.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v159_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2.1, (hagree c).2.2.2.2.2.2.2.2.2.2.1,
      (hagree c).2.2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
